-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S1024x2560 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg6 : FVec F S64 .f32) (main_arg7 : FVec F S64x128 .f32) (main_arg8 : FVec F S128 .f32) (main_arg9 : FVec F S128x1 .f32) (main_arg10 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32x64 .f32) (main_arg6 : FVec F S64 .f32) (main_arg7 : FVec F S64x128 .f32) (main_arg8 : FVec F S128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S102400x1 : Shape := ⟨2, ![102400, 1]⟩
abbrev S102400x128 : Shape := ⟨2, ![102400, 128]⟩
abbrev S102400x32 : Shape := ⟨2, ![102400, 32]⟩
abbrev S2560x128 : Shape := ⟨2, ![2560, 128]⟩
abbrev S2560x1 : Shape := ⟨2, ![2560, 1]⟩
abbrev S2560x32 : Shape := ⟨2, ![2560, 32]⟩
abbrev S1600000x32 : Shape := ⟨2, ![1600000, 32]⟩
abbrev S100000x32 : Shape := ⟨2, ![100000, 32]⟩
abbrev S1x32 : Shape := ⟨2, ![1, 32]⟩
abbrev S102400x64 : Shape := ⟨2, ![102400, 64]⟩
abbrev S2560x64 : Shape := ⟨2, ![2560, 64]⟩
abbrev S1600000x64 : Shape := ⟨2, ![1600000, 64]⟩
abbrev S100000x64 : Shape := ⟨2, ![100000, 64]⟩
abbrev S1x64 : Shape := ⟨2, ![1, 64]⟩
abbrev S1600000x128 : Shape := ⟨2, ![1600000, 128]⟩
abbrev S102400 : Shape := ⟨1, ![102400]⟩
abbrev S1x102400 : Shape := ⟨2, ![1, 102400]⟩
abbrev S1x128 : Shape := ⟨2, ![1, 128]⟩
abbrev S1x1 : Shape := ⟨2, ![1, 1]⟩
abbrev S1024x1 : Shape := ⟨2, ![1024, 1]⟩
abbrev S1x2560 : Shape := ⟨2, ![1, 2560]⟩
abbrev S1024x128 : Shape := ⟨2, ![1024, 128]⟩
abbrev S1024x2560 : Shape := ⟨2, ![1024, 2560]⟩
abbrev S1024 : Shape := ⟨1, ![1024]⟩

abbrev nBuf : Space → Nat
  | .hbm => 92
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S_, .f32⟩
  | .hbm, ⟨28, _⟩ => ⟨S102400x1, .f32⟩
  | .hbm, ⟨29, _⟩ => ⟨S_, .f32⟩
  | .hbm, ⟨30, _⟩ => ⟨S_, .f32⟩
  | .hbm, ⟨31, _⟩ => ⟨S102400x128, .f32⟩
  | .hbm, ⟨32, _⟩ => ⟨S102400x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S_, .f32⟩
  | .hbm, ⟨47, _⟩ => ⟨S_, .f32⟩
  | .hbm, ⟨48, _⟩ => ⟨S102400x32, .f32⟩
  | .hbm, ⟨49, _⟩ => ⟨S1x32, .f32⟩
  | .hbm, ⟨50, _⟩ => ⟨S102400x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S_, .f32⟩
  | .hbm, ⟨66, _⟩ => ⟨S102400x64, .f32⟩
  | .hbm, ⟨67, _⟩ => ⟨S1x64, .f32⟩
  | .hbm, ⟨68, _⟩ => ⟨S102400x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S_, .f32⟩
  | .hbm, ⟨84, _⟩ => ⟨S102400x128, .f32⟩
  | .hbm, ⟨85, _⟩ => ⟨S_, .i32⟩
  | .hbm, ⟨86, _⟩ => ⟨S_, .i32⟩
  | .hbm, ⟨87, _⟩ => ⟨S102400, .i32⟩
  | .hbm, ⟨88, _⟩ => ⟨S1x102400, .i32⟩
  | .hbm, ⟨89, _⟩ => ⟨S1x128, .f32⟩
  | .hbm, ⟨90, _⟩ => ⟨S1x1, .f32⟩
  | .hbm, ⟨91, _⟩ => ⟨S1024x1, .f32⟩
  | .local _ .vmem, ⟨0, _⟩ => ⟨S2560x128, .f32⟩
  | .local _ .vmem, ⟨1, _⟩ => ⟨S2560x128, .f32⟩
  | .local _ .vmem, ⟨2, _⟩ => ⟨S128x32, .f32⟩
  | .local _ .vmem, ⟨3, _⟩ => ⟨S2560x1, .f32⟩
  | .local _ .vmem, ⟨4, _⟩ => ⟨S2560x1, .f32⟩
  | .local _ .vmem, ⟨5, _⟩ => ⟨S2560x32, .f32⟩
  | .local _ .vmem, ⟨6, _⟩ => ⟨S2560x32, .f32⟩
  | .local _ .vmem, ⟨7, _⟩ => ⟨S2560x32, .f32⟩
  | .local _ .vmem, ⟨8, _⟩ => ⟨S2560x32, .f32⟩
  | .local _ .vmem, ⟨9, _⟩ => ⟨S2560x32, .f32⟩
  | .local _ .vmem, ⟨10, _⟩ => ⟨S2560x32, .f32⟩
  | .local _ .vmem, ⟨11, _⟩ => ⟨S2560x1, .f32⟩
  | .local _ .vmem, ⟨12, _⟩ => ⟨S2560x1, .f32⟩
  | .local _ .vmem, ⟨13, _⟩ => ⟨S1x32, .f32⟩
  | .local _ .vmem, ⟨14, _⟩ => ⟨S32x64, .f32⟩
  | .local _ .vmem, ⟨15, _⟩ => ⟨S2560x64, .f32⟩
  | .local _ .vmem, ⟨16, _⟩ => ⟨S2560x64, .f32⟩
  | .local _ .vmem, ⟨17, _⟩ => ⟨S2560x64, .f32⟩
  | .local _ .vmem, ⟨18, _⟩ => ⟨S2560x64, .f32⟩
  | .local _ .vmem, ⟨19, _⟩ => ⟨S2560x64, .f32⟩
  | .local _ .vmem, ⟨20, _⟩ => ⟨S2560x64, .f32⟩
  | .local _ .vmem, ⟨21, _⟩ => ⟨S2560x1, .f32⟩
  | .local _ .vmem, ⟨22, _⟩ => ⟨S2560x1, .f32⟩
  | .local _ .vmem, ⟨23, _⟩ => ⟨S1x64, .f32⟩
  | .local _ .vmem, ⟨24, _⟩ => ⟨S64x128, .f32⟩
  | .local _ .vmem, ⟨25, _⟩ => ⟨S2560x128, .f32⟩
  | .local _ .vmem, ⟨26, _⟩ => ⟨S2560x128, .f32⟩
  | .local _ .vmem, ⟨27, _⟩ => ⟨S2560x128, .f32⟩
  | .local _ .vmem, ⟨28, _⟩ => ⟨S2560x128, .f32⟩
  | .local _ .vmem, ⟨29, _⟩ => ⟨S2560x128, .f32⟩
  | .local _ .vmem, ⟨30, _⟩ => ⟨S2560x128, .f32⟩
  | .local _ .vmem, ⟨31, _⟩ => ⟨S2560x1, .f32⟩
  | .local _ .vmem, ⟨32, _⟩ => ⟨S2560x1, .f32⟩
  | .local _ .vmem, ⟨33, _⟩ => ⟨S1x128, .f32⟩
  | .local _ .vmem, ⟨34, _⟩ => ⟨S1x2560, .i32⟩
  | .local _ .vmem, ⟨35, _⟩ => ⟨S1x2560, .i32⟩
  | .local _ .vmem, ⟨36, _⟩ => ⟨S128x1, .f32⟩
  | .local _ .vmem, ⟨37, _⟩ => ⟨S1x1, .f32⟩
  | .local _ .vmem, ⟨38, _⟩ => ⟨S1024x1, .f32⟩
  | .local _ .vmem, ⟨39, _⟩ => ⟨S1024x128, .f32⟩
  | .local _ .vmem, ⟨40, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_call0_v0 : Ref sig .tc := ⟨.hbm, 27, rfl⟩
abbrev main_v12 : Ref sig .tc := ⟨.hbm, 28, rfl⟩
abbrev main_cst_3 : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_call2_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_10 : Ref sig .tc := ⟨.hbm, 64, rfl⟩
abbrev main_call3_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_11 : Ref sig .tc := ⟨.hbm, 69, rfl⟩
abbrev main_v41 : Ref sig .tc := ⟨.hbm, 70, rfl⟩
abbrev main_v42 : Ref sig .tc := ⟨.hbm, 71, rfl⟩
abbrev main_c_12 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_14 : Ref sig .tc := ⟨.hbm, 82, rfl⟩
abbrev main_call4_v0 : Ref sig .tc := ⟨.hbm, 83, rfl⟩
abbrev main_v51 : Ref sig .tc := ⟨.hbm, 84, rfl⟩
abbrev main_c_15 : Ref sig .tc := ⟨.hbm, 85, rfl⟩
abbrev main_call5_v0 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_scratch0 : Ref sig .tc := ⟨.vmem, 39, rfl⟩
abbrev cc3_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem6_0 : DmaSem sig := 37
abbrev cc3_sem7_0 : DmaSem sig := 38

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2560x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2560x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2560x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2560x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2560x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2560x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def k3_cond2 (i : grid3.Coords) : BitVec 1 :=
  let arg0 : BitVec 32 := BitVec.ofNat 32 (i 0).val
  let c39_i32 : BitVec 32 := 39#32
  let v39 : BitVec 1 := Scalar.cmpi .eq arg0 c39_i32
  let v40 : BitVec 32 := Scalar.extui v39
  let c0_i32_19 : BitVec 32 := 0#32
  let v41 : BitVec 1 := Scalar.cmpi .ne v40 c0_i32_19
  v41

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2560x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2560x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2560x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x2560 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  pads_S100000x1_S102400x1_024000_000 : S100000x1.Pads (![0, 0] : Fin 2 → Nat) ![2400, 0] ![0, 0] S102400x1
  h_S_ : 0 < S_.numel
  pads_S100000x128_S102400x128_024000_000 : S100000x128.Pads (![0, 0] : Fin 2 → Nat) ![2400, 0] ![0, 0] S102400x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S2560x1_S2560x1_0_0 : ∀ a, (![0, 0] : Fin 2 → Nat) a + S2560x1.size a ≤ S2560x1.size a
  h_S2560x1 : 0 < S2560x1.numel
  shapeCasts_S2560x1_S2560x1 : S2560x1.ShapeCasts S2560x1
  broadcasts_S2560x1_S2560x32 : S2560x1.Broadcasts S2560x32
  inb_S2560x32_S2560x32_0_0 : ∀ a, (![0, 0] : Fin 2 → Nat) a + S2560x32.size a ≤ S2560x32.size a
  h_S2560x32 : 0 < S2560x32.numel
  bcast_S_S100000x32 : S_.BroadcastsInDim S100000x32 (![] : Fin 0 → Fin S100000x32.rank)
  pads_S100000x32_S102400x32_024000_000 : S100000x32.Pads (![0, 0] : Fin 2 → Nat) ![2400, 0] ![0, 0] S102400x32
  shapeCasts_S32_S1x32 : S32.ShapeCasts S1x32
  shapeCasts_S2560x32_S2560x32 : S2560x32.ShapeCasts S2560x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2560x32 : S1x32.Broadcasts S2560x32
  inb_S32x64_S32x64_0_0 : ∀ a, (![0, 0] : Fin 2 → Nat) a + S32x64.size a ≤ S32x64.size a
  h_S32x64 : 0 < S32x64.numel
  broadcasts_S2560x1_S2560x64 : S2560x1.Broadcasts S2560x64
  inb_S2560x64_S2560x64_0_0 : ∀ a, (![0, 0] : Fin 2 → Nat) a + S2560x64.size a ≤ S2560x64.size a
  h_S2560x64 : 0 < S2560x64.numel
  bcast_S_S100000x64 : S_.BroadcastsInDim S100000x64 (![] : Fin 0 → Fin S100000x64.rank)
  pads_S100000x64_S102400x64_024000_000 : S100000x64.Pads (![0, 0] : Fin 2 → Nat) ![2400, 0] ![0, 0] S102400x64
  shapeCasts_S64_S1x64 : S64.ShapeCasts S1x64
  shapeCasts_S2560x64_S2560x64 : S2560x64.ShapeCasts S2560x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2560x64 : S1x64.Broadcasts S2560x64
  inb_S64x128_S64x128_0_0 : ∀ a, (![0, 0] : Fin 2 → Nat) a + S64x128.size a ≤ S64x128.size a
  h_S64x128 : 0 < S64x128.numel
  broadcasts_S2560x1_S2560x128 : S2560x1.Broadcasts S2560x128
  bcast_S_S100000x128 : S_.BroadcastsInDim S100000x128 (![] : Fin 0 → Fin S100000x128.rank)
  pads_S100000_S102400_024000 : S100000.Pads (![0] : Fin 1 → Nat) ![2400] ![0] S102400
  shapeCasts_S102400_S1x102400 : S102400.ShapeCasts S1x102400
  shapeCasts_S128_S1x128 : S128.ShapeCasts S1x128
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  iota_S1024x2560_d0_w32 : S1024x2560.Iotas .tc 32 [0]
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1024x2560 : S1x2560.Broadcasts S1024x2560
  natLt_1_32 : 1 < 32
  reduces_S1024x2560_S1024 : S1024x2560.Reduces [1] S1024
  shapeCasts_S1024_S1024x1 : S1024.ShapeCasts S1024x1
  broadcasts_S1024x1_S1024x128 : S1024x1.Broadcasts S1024x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  scatter_S100000_S1600000x1_S1600000_n_0_0_1_wf : ScatterDims.WF S100000 S1600000x1 S1600000 [] [0] [0] 1
  dot_S2560x128_S128x32_S2560x32_1_0_0_1_n_n_wf : DotDims.WF S2560x128 S128x32 S2560x32 [1] [0] [0] [1] [] []
  gather_S102400x32_S1600000x1_S1600000x32_1_0_n_n_0_1_132_wf : GatherDims.WF S102400x32 S1600000x1 S1600000x32 [1] [0] [] [0] [] 1 ![1, 32]
  scatter_S100000x32_S1600000x1_S1600000x32_1_0_0_1_wf : ScatterDims.WF S100000x32 S1600000x1 S1600000x32 [1] [0] [0] 1
  dot_S2560x32_S32x64_S2560x64_1_0_0_1_n_n_wf : DotDims.WF S2560x32 S32x64 S2560x64 [1] [0] [0] [1] [] []
  gather_S102400x64_S1600000x1_S1600000x64_1_0_n_n_0_1_164_wf : GatherDims.WF S102400x64 S1600000x1 S1600000x64 [1] [0] [] [0] [] 1 ![1, 64]
  scatter_S100000x64_S1600000x1_S1600000x64_1_0_0_1_wf : ScatterDims.WF S100000x64 S1600000x1 S1600000x64 [1] [0] [0] 1
  dot_S2560x64_S64x128_S2560x128_1_0_0_1_n_n_wf : DotDims.WF S2560x64 S64x128 S2560x128 [1] [0] [0] [1] [] []
  gather_S102400x128_S1600000x1_S1600000x128_1_0_n_n_0_1_1128_wf : GatherDims.WF S102400x128 S1600000x1 S1600000x128 [1] [0] [] [0] [] 1 ![1, 128]
  scatter_S100000x128_S1600000x1_S1600000x128_1_0_0_1_wf : ScatterDims.WF S100000x128 S1600000x1 S1600000x128 [1] [0] [0] 1
  dot_S1024x2560_S2560x128_S1024x128_1_0_0_1_n_n_wf : DotDims.WF S1024x2560 S2560x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S102400x128.size a
  hwx0_0 : ∀ i : grid0.Coords, EltTy.bits .f32 = 32 ∨ (Rect.block (s := S102400x128) S2560x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x1.size a ≤ S102400x1.size a
  hwx0_2 : ∀ i : grid0.Coords, EltTy.bits .f32 = 32 ∨ (Rect.block (s := S102400x1) S2560x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2560x32.size a ≤ S102400x32.size a
  hwx0_3 : ∀ i : grid0.Coords, EltTy.bits .f32 = 32 ∨ (Rect.block (s := S102400x32) S2560x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x32.size a ≤ S102400x32.size a
  hwx1_0 : ∀ i : grid1.Coords, EltTy.bits .f32 = 32 ∨ (Rect.block (s := S102400x32) S2560x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x32.size a ≤ S102400x32.size a
  hwx1_1 : ∀ i : grid1.Coords, EltTy.bits .f32 = 32 ∨ (Rect.block (s := S102400x32) S2560x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x1.size a ≤ S102400x1.size a
  hwx1_2 : ∀ i : grid1.Coords, EltTy.bits .f32 = 32 ∨ (Rect.block (s := S102400x1) S2560x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2560x64.size a ≤ S102400x64.size a
  hwx1_5 : ∀ i : grid1.Coords, EltTy.bits .f32 = 32 ∨ (Rect.block (s := S102400x64) S2560x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2560x64.size a ≤ S102400x64.size a
  hwx2_0 : ∀ i : grid2.Coords, EltTy.bits .f32 = 32 ∨ (Rect.block (s := S102400x64) S2560x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x64.size a ≤ S102400x64.size a
  hwx2_1 : ∀ i : grid2.Coords, EltTy.bits .f32 = 32 ∨ (Rect.block (s := S102400x64) S2560x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2560x1.size a ≤ S102400x1.size a
  hwx2_2 : ∀ i : grid2.Coords, EltTy.bits .f32 = 32 ∨ (Rect.block (s := S102400x1) S2560x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2560x128.size a ≤ S102400x128.size a
  hwx2_5 : ∀ i : grid2.Coords, EltTy.bits .f32 = 32 ∨ (Rect.block (s := S102400x128) S2560x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2560x128.size a ≤ S102400x128.size a
  hwx3_0 : ∀ i : grid3.Coords, EltTy.bits .f32 = 32 ∨ (Rect.block (s := S102400x128) S2560x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2560x128.size a ≤ S102400x128.size a
  hwx3_1 : ∀ i : grid3.Coords, EltTy.bits .f32 = 32 ∨ (Rect.block (s := S102400x128) S2560x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2560x1.size a ≤ S102400x1.size a
  hwx3_2 : ∀ i : grid3.Coords, EltTy.bits .f32 = 32 ∨ (Rect.block (s := S102400x1) S2560x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2560.size a ≤ S1x102400.size a
  hwx3_4 : ∀ i : grid3.Coords, EltTy.bits .i32 = 32 ∨ (Rect.block (s := S1x102400) S1x2560.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1024x1.size a ≤ S1024x1.size a
  hwx3_7 : ∀ i : grid3.Coords, EltTy.bits .f32 = 32 ∨ (Rect.block (s := S1024x1) S1024x1.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2560x128_S128x32_S2560x32_1_0_0_1_n_n : DotDims S2560x128 S128x32 S2560x32 where
  lhsContracting := [1]
  rhsContracting := [0]
  lhsNonContracting := [0]
  rhsNonContracting := [1]
  lhsBatch := []
  rhsBatch := []
  wf := dot_S2560x128_S128x32_S2560x32_1_0_0_1_n_n_wf
def gather_S102400x32_S1600000x1_S1600000x32_1_0_n_n_0_1_132 : GatherDims S102400x32 S1600000x1 S1600000x32 where
  offsetDims := [1]
  collapsedSliceDims := [0]
  operandBatchingDims := []
  startIndicesBatchingDims := []
  startIndexMap := [0]
  indexVectorDim := 1
  sliceSizes := ![1, 32]
  wf := gather_S102400x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2560x32_S32x64_S2560x64_1_0_0_1_n_n : DotDims S2560x32 S32x64 S2560x64 where
  lhsContracting := [1]
  rhsContracting := [0]
  lhsNonContracting := [0]
  rhsNonContracting := [1]
  lhsBatch := []
  rhsBatch := []
  wf := dot_S2560x32_S32x64_S2560x64_1_0_0_1_n_n_wf
def gather_S102400x64_S1600000x1_S1600000x64_1_0_n_n_0_1_164 : GatherDims S102400x64 S1600000x1 S1600000x64 where
  offsetDims := [1]
  collapsedSliceDims := [0]
  operandBatchingDims := []
  startIndicesBatchingDims := []
  startIndexMap := [0]
  indexVectorDim := 1
  sliceSizes := ![1, 64]
  wf := gather_S102400x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2560x64_S64x128_S2560x128_1_0_0_1_n_n : DotDims S2560x64 S64x128 S2560x128 where
  lhsContracting := [1]
  rhsContracting := [0]
  lhsNonContracting := [0]
  rhsNonContracting := [1]
  lhsBatch := []
  rhsBatch := []
  wf := dot_S2560x64_S64x128_S2560x128_1_0_0_1_n_n_wf
def gather_S102400x128_S1600000x1_S1600000x128_1_0_n_n_0_1_1128 : GatherDims S102400x128 S1600000x1 S1600000x128 where
  offsetDims := [1]
  collapsedSliceDims := [0]
  operandBatchingDims := []
  startIndicesBatchingDims := []
  startIndexMap := [0]
  indexVectorDim := 1
  sliceSizes := ![1, 128]
  wf := gather_S102400x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1024x2560_S2560x128_S1024x128_1_0_0_1_n_n : DotDims S1024x2560 S2560x128 S1024x128 where
  lhsContracting := [1]
  rhsContracting := [0]
  lhsNonContracting := [0]
  rhsNonContracting := [1]
  lhsBatch := []
  rhsBatch := []
  wf := dot_S1024x2560_S2560x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v13) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2560x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2560x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2560x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2560x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2560x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2560x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2560x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2560x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2560x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S2560x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S2560x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2560x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2560x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x2560.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v56) S1024x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x32 : Shape := ⟨2, ![100000, 32]⟩
abbrev S1600000x32 : Shape := ⟨2, ![1600000, 32]⟩
abbrev S100000x1 : Shape := ⟨2, ![100000, 1]⟩
abbrev S1x32 : Shape := ⟨2, ![1, 32]⟩
abbrev S100000x64 : Shape := ⟨2, ![100000, 64]⟩
abbrev S1600000x64 : Shape := ⟨2, ![1600000, 64]⟩
abbrev S1x64 : Shape := ⟨2, ![1, 64]⟩
abbrev S1600000x128 : Shape := ⟨2, ![1600000, 128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x32, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x32, .f32⟩
  | 55 => ⟨S1600000x32, .f32⟩
  | 56 => ⟨S1600000x32, .f32⟩
  | 57 => ⟨S_, .f32⟩
  | 58 => ⟨S100000x32, .f32⟩
  | 59 => ⟨S1600000x1, .i32⟩
  | 60 => ⟨S100000x32, .f32⟩
  | 61 => ⟨S100000, .f32⟩
  | 62 => ⟨S100000x1, .f32⟩
  | 63 => ⟨S100000x32, .f32⟩
  | 64 => ⟨S100000x32, .f32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000, .f32⟩
  | 28 => ⟨S100000x1, .f32⟩
  | 29 => ⟨S100000x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S1024x128, .f32⟩
  | 37 => ⟨S100000x1, .i32⟩
  | 38 => ⟨S1024x128, .f32⟩
  | 39 => ⟨S_, .f32⟩
  | 40 => ⟨S100000, .f32⟩
  | 41 => ⟨S_, .f32⟩
  | 42 => ⟨S1024, .f32⟩
  | 43 => ⟨S100000x1, .i32⟩
  | 44 => ⟨S1024, .f32⟩
  | 45 => ⟨S_, .f32⟩
  | 46 => ⟨S1024, .f32⟩
  | 47 => ⟨S1024, .f32⟩
  | 48 => ⟨S1024x1, .f32⟩
  | 49 => ⟨S1024x128, .f32⟩
  | 50 => ⟨S1024x128, .f32⟩
  | 51 => ⟨S1024x1, .f32⟩
  | 52 => ⟨S1x1, .f32⟩
  | 53 => ⟨S1024x1, .f32⟩
  | 54 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_23 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x1_S1024x1_1_0_0_1_n_n_wf : DotDims.WF S1024x128 S128x1 S1024x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

class Facts : Prop extends Facts₀ where

variable [Facts]
-- ==== Proof.Fr.Reg0.lean ====
import proofs.«415774_j67989332296056_2_alg».proof.Proof.Gen.KernelIdeal.Launch
import proofs.«415774_j67989332296056_2_alg».proof.Proof.Gen.KernelIdeal.Skeleton
import proofs.«415774_j67989332296056_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2560x128 := Rect.unit (s := S2560x128) ![0, 0] S2560x128.size inb_S2560x128_S2560x128_0_0
abbrev r0_1 : Rect S128x32 := Rect.unit (s := S128x32) ![0, 0] S128x32.size inb_S128x32_S128x32_0_0
abbrev r0_2 : Rect S2560x1 := Rect.unit (s := S2560x1) ![0, 0] S2560x1.size inb_S2560x1_S2560x1_0_0
abbrev r0_3 : Rect S2560x32 := Rect.unit (s := S2560x32) ![0, 0] S2560x32.size inb_S2560x32_S2560x32_0_0

def out0_3 (x0 : Vec F S2560x128 .f32) (x1 : Vec F S128x32 .f32) (x2 : Vec F S2560x1 .f32) : Vec F S2560x32 .f32 :=
  View.canon [⟨r0_3, k0_pay1 (View.ld x0 r0_0) (View.ld x1 r0_1) (View.ld x2 r0_2)⟩]

theorem zero2 : (![0, 0] : Fin 2 → Nat) = fun _ => 0 := by
  funext a; match a with | ⟨0, _⟩ => rfl | ⟨1, _⟩ => rfl

theorem out0_3_eq (x0 : Vec F S2560x128 .f32) (x1 : Vec F S128x32 .f32) (x2 : Vec F S2560x1 .f32) :
    out0_3 x0 x1 x2 = k0_pay1 x0 x1 x2 := by
  unfold out0_3
  rw [View.canon_unit_zero zero2, View.ld_unit_zero (S := S2560x128) zero2, View.ld_unit_zero (S := S128x32) zero2,
    View.ld_unit_zero (S := S2560x1) zero2]

/-- Under any frame, with input `k` read as `x_k` whatever `d` is, the body keeps the inputs and leaves the output at `y`. -/
theorem sound_kernel0 {c : Dev nD} {E : Set ℕ} {i : grid0.Coords}
    {arg1 : Memref sig .tc .vmem S2560x128 .f32} {harg1 : arg1.IsWhole} {arg2 : Memref sig .tc .vmem S128x32 .f32} {harg2 : arg2.IsWhole}
    {arg3 : Memref sig .tc .vmem S2560x1 .f32} {harg3 : arg3.IsWhole} {arg4 : Memref sig .tc .vmem S2560x32 .f32} {harg4 : arg4.IsWhole}
    {D0 D1 D2 D3 : Type} {X0 : D0 → Vec F S2560x128 .f32} {X1 : D1 → Vec F S128x32 .f32} {X2 : D2 → Vec F S2560x1 .f32}
    {X3 : D3 → Vec F S2560x32 .f32} {x0 : Vec F S2560x128 .f32} {x1 : Vec F S128x32 .f32} {x2 : Vec F S2560x1 .f32}
    {y : Vec F S2560x32 .f32} {R R' : sProp 𝕄}
    (h0 : ∀ d, X0 d = x0) (h1 : ∀ d, X1 d = x1) (h2 : ∀ d, X2 d = x2) (hy : y = out0_3 x0 x1 x2) :
    iprop(R ∗ R' ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d)))
      ⊢ wp frame (wpE (defs₀ (F := F)) Variants.none c none) E (cc0__dense_scaled_kernel i arg1 harg1 arg2 harg2 arg3 harg3 arg4 harg4)
          (fun _ => iprop(R ∗ R' ∗ owns (c : Thread nD τ) arg1 fullShare x0 ∗ owns (c : Thread nD τ) arg2 fullShare x1
            ∗ owns (c : Thread nD τ) arg3 fullShare x2 ∗ owns (c : Thread nD τ) arg4 fullShare y)) := by
  simp only [cc0__dense_scaled_kernel_eq_skeleton, h0, h1, h2, hy]; unfold cc0__dense_scaled_kernel_skel
  unfold owns
  iintro ⟨HR, HR', ⟨%_, %f0, %hf0, H0⟩, ⟨%_, %f1, %hf1, H1⟩, ⟨%_, %f2, %hf2, H2⟩, ⟨%_, %f3, -, H3⟩⟩
  subst hf0 hf1 hf2
  sl_exec
  sl_step
  iframe HR HR'
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ fun y => ⟨_, List.mem_singleton_self _, View.mem_set_unit_zero zero2 inb_S2560x32_S2560x32_0_0 y⟩

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_3 (c : Dev nD) (t : Fin cfg0.N) :
    (dat0 V c).after 3 t = out0_3 (iblk0 V c 0 t) (iblk0 V c 1 t) (iblk0 V c 2 t) := by dsimp only [dat0]

theorem before0 (c : Dev nD) (t : Fin cfg0.N) : ∀ w : Fin cfg0.W, (cfg0.win w).isOut = false → ∀ d, (dat0 V c).before w t d = (dat0 V c).fetched w t d
  | ⟨0, _⟩, _, d | ⟨1, _⟩, _, d | ⟨2, _⟩, _, d => (dat0 V c).before_in_eq_fetched _ rfl (fun _ => rfl) (fun _ _ _ => rfl) (fun _ => rfl) t d
  | ⟨3, _⟩, h, _ => Bool.noConfusion (h : true = false)

theorem body_obligation0 (c : Dev nD) : BodyObligation (dat0 (F := F) V c) (defs₀ (F := F)) Variants.none () Set.univ := fun t => by
  rw [bigSep_W0, bigSep_W0]
  exact sound_kernel0 (i := grid0.coords t) (harg1 := hstage0_0 _) (harg2 := hstage0_1 _) (harg3 := hstage0_2 _) (harg4 := hstage0_3 _)
    (fun d => (before0 V c t 0 rfl d).trans rfl) (fun d => (before0 V c t 1 rfl d).trans rfl) (fun d => (before0 V c t 2 rfl d).trans rfl)
    (after0_3 V c t)

end Cert.KernelIdeal.Fr

end
-- ==== Proof.Fr.Reg1.lean ====
import proofs.«415774_j67989332296056_2_alg».proof.Proof.Gen.KernelIdeal.Launch
import proofs.«415774_j67989332296056_2_alg».proof.Proof.Gen.KernelIdeal.Skeleton
import proofs.«415774_j67989332296056_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2560x1 := Rect.unit (s := S2560x1) ![0, 0] S2560x1.size inb_S2560x1_S2560x1_0_0
abbrev r1_1 : Rect S2560x32 := Rect.unit (s := S2560x32) ![0, 0] S2560x32.size inb_S2560x32_S2560x32_0_0
abbrev r1_2 : Rect S1x32 := Rect.unit (s := S1x32) ![0, 0] S1x32.size inb_S1x32_S1x32_0_0
abbrev r1_3 : Rect S32x64 := Rect.unit (s := S32x64) ![0, 0] S32x64.size inb_S32x64_S32x64_0_0
abbrev r1_4 : Rect S2560x64 := Rect.unit (s := S2560x64) ![0, 0] S2560x64.size inb_S2560x64_S2560x64_0_0

def out1_5 (x0 : Vec F S2560x32 .f32) (x1 : Vec F S2560x32 .f32) (x2 : Vec F S2560x1 .f32) (x3 : Vec F S1x32 .f32) (x4 : Vec F S32x64 .f32) : Vec F S2560x64 .f32 :=
  View.canon [⟨r1_4, k1_pay1 (View.ld x2 r1_0) (View.ld x0 r1_1) (View.ld x1 r1_1) (View.ld x3 r1_2) (View.ld x4 r1_3) (View.ld x2 r1_0)⟩]

theorem hz1 : (![0, 0] : Fin 2 → Nat) = fun _ => 0 := by
  funext a; match a with | ⟨0, _⟩ => rfl | ⟨1, _⟩ => rfl

theorem out1_5_eq (x0 : Vec F S2560x32 .f32) (x1 : Vec F S2560x32 .f32) (x2 : Vec F S2560x1 .f32) (x3 : Vec F S1x32 .f32) (x4 : Vec F S32x64 .f32) :
    out1_5 x0 x1 x2 x3 x4 = k1_pay1 x2 x0 x1 x3 x4 x2 := by
  unfold out1_5
  rw [View.canon_unit_zero hz1, View.ld_unit_zero (S := S2560x1) hz1, View.ld_unit_zero (S := S2560x32) hz1,
    View.ld_unit_zero (S := S2560x32) hz1, View.ld_unit_zero (S := S1x32) hz1, View.ld_unit_zero (S := S32x64) hz1]

/-- Under any frame, with input `k` read as `x_k` whatever `d` is, the body keeps the inputs and leaves the output at `y`. -/
theorem sound_kernel1 {c : Dev nD} {E : Set ℕ} {i : grid1.Coords}
    {arg1 : Memref sig .tc .vmem S2560x32 .f32} {harg1 : arg1.IsWhole} {arg2 : Memref sig .tc .vmem S2560x32 .f32} {harg2 : arg2.IsWhole}
    {arg3 : Memref sig .tc .vmem S2560x1 .f32} {harg3 : arg3.IsWhole} {arg4 : Memref sig .tc .vmem S1x32 .f32} {harg4 : arg4.IsWhole}
    {arg5 : Memref sig .tc .vmem S32x64 .f32} {harg5 : arg5.IsWhole} {arg6 : Memref sig .tc .vmem S2560x64 .f32} {harg6 : arg6.IsWhole}
    {D0 D1 D2 D3 D4 D5 : Type} {X0 : D0 → Vec F S2560x32 .f32} {X1 : D1 → Vec F S2560x32 .f32} {X2 : D2 → Vec F S2560x1 .f32}
    {X3 : D3 → Vec F S1x32 .f32} {X4 : D4 → Vec F S32x64 .f32} {X5 : D5 → Vec F S2560x64 .f32}
    {x0 : Vec F S2560x32 .f32} {x1 : Vec F S2560x32 .f32} {x2 : Vec F S2560x1 .f32} {x3 : Vec F S1x32 .f32} {x4 : Vec F S32x64 .f32}
    {y : Vec F S2560x64 .f32} {R R' : sProp 𝕄}
    (h0 : ∀ d, X0 d = x0) (h1 : ∀ d, X1 d = x1) (h2 : ∀ d, X2 d = x2) (h3 : ∀ d, X3 d = x3) (h4 : ∀ d, X4 d = x4)
    (hy : y = out1_5 x0 x1 x2 x3 x4) :
    iprop(R ∗ R' ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d))
        ∗ (∃ d, owns (c : Thread nD τ) arg5 fullShare (X4 d)) ∗ (∃ d, owns (c : Thread nD τ) arg6 fullShare (X5 d)))
      ⊢ wp frame (wpE (defs₀ (F := F)) Variants.none c none) E
          (cc1__combine_transform_kernel i arg1 harg1 arg2 harg2 arg3 harg3 arg4 harg4 arg5 harg5 arg6 harg6)
          (fun _ => iprop(R ∗ R' ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare y)) := by
  simp only [cc1__combine_transform_kernel_eq_skeleton, h0, h1, h2, h3, h4, hy]; unfold cc1__combine_transform_kernel_skel
  unfold owns
  iintro ⟨HR, HR', ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩⟩
  subst hf0 hf1 hf2 hf3 hf4
  sl_exec
  sl_step
  iframe HR HR'
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ fun y => ⟨_, List.mem_singleton_self _, View.mem_set_unit_zero hz1 inb_S2560x64_S2560x64_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) : ∀ w : Fin cfg1.W, (cfg1.win w).isOut = false → ∀ d, (dat1 V c).before w t d = (dat1 V c).fetched w t d
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨5, _⟩, h, _ => Bool.noConfusion (h : true = false)

theorem body_obligation1 (c : Dev nD) : BodyObligation (dat1 (F := F) V c) (defs₀ (F := F)) Variants.none () Set.univ := fun t => by
  rw [bigSep_W1, bigSep_W1]
  exact sound_kernel1 (i := grid1.coords t) (harg1 := hstage1_0 _) (harg2 := hstage1_1 _) (harg3 := hstage1_2 _) (harg4 := hstage1_3 _)
    (harg5 := hstage1_4 _) (harg6 := hstage1_5 _)
    (fun d => (before1 V c t 0 rfl d).trans rfl) (fun d => (before1 V c t 1 rfl d).trans rfl) (fun d => (before1 V c t 2 rfl d).trans rfl)
    (fun d => (before1 V c t 3 rfl d).trans rfl) (fun d => (before1 V c t 4 rfl d).trans rfl) (after1_5 V c t)

end Cert.KernelIdeal.Fr

end
-- ==== Proof.Fr.Reg2.lean ====
import proofs.«415774_j67989332296056_2_alg».proof.Proof.Gen.KernelIdeal.Launch
import proofs.«415774_j67989332296056_2_alg».proof.Proof.Gen.KernelIdeal.Skeleton
import proofs.«415774_j67989332296056_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2560x1 := Rect.unit (s := S2560x1) ![0, 0] S2560x1.size inb_S2560x1_S2560x1_0_0
abbrev r2_1 : Rect S2560x64 := Rect.unit (s := S2560x64) ![0, 0] S2560x64.size inb_S2560x64_S2560x64_0_0
abbrev r2_2 : Rect S1x64 := Rect.unit (s := S1x64) ![0, 0] S1x64.size inb_S1x64_S1x64_0_0
abbrev r2_3 : Rect S64x128 := Rect.unit (s := S64x128) ![0, 0] S64x128.size inb_S64x128_S64x128_0_0
abbrev r2_4 : Rect S2560x128 := Rect.unit (s := S2560x128) ![0, 0] S2560x128.size inb_S2560x128_S2560x128_0_0

def out2_5 (x0 : Vec F S2560x64 .f32) (x1 : Vec F S2560x64 .f32) (x2 : Vec F S2560x1 .f32) (x3 : Vec F S1x64 .f32) (x4 : Vec F S64x128 .f32) : Vec F S2560x128 .f32 :=
  View.canon [⟨r2_4, k2_pay1 (View.ld x2 r2_0) (View.ld x0 r2_1) (View.ld x1 r2_1) (View.ld x3 r2_2) (View.ld x4 r2_3) (View.ld x2 r2_0)⟩]

theorem hz2 : (![0, 0] : Fin 2 → Nat) = fun _ => 0 := by
  funext a; match a with | ⟨0, _⟩ => rfl | ⟨1, _⟩ => rfl

theorem out2_5_eq (x0 : Vec F S2560x64 .f32) (x1 : Vec F S2560x64 .f32) (x2 : Vec F S2560x1 .f32) (x3 : Vec F S1x64 .f32) (x4 : Vec F S64x128 .f32) :
    out2_5 x0 x1 x2 x3 x4 = k2_pay1 x2 x0 x1 x3 x4 x2 := by
  unfold out2_5
  rw [View.canon_unit_zero hz2, View.ld_unit_zero (S := S2560x1) hz2, View.ld_unit_zero (S := S2560x64) hz2,
    View.ld_unit_zero (S := S2560x64) hz2, View.ld_unit_zero (S := S1x64) hz2, View.ld_unit_zero (S := S64x128) hz2]

/-- Under any frame, with input `k` read as `x_k` whatever `d` is, the body keeps the inputs and leaves the output at `y`. -/
theorem sound_kernel2 {c : Dev nD} {E : Set ℕ} {i : grid2.Coords}
    {arg1 : Memref sig .tc .vmem S2560x64 .f32} {harg1 : arg1.IsWhole} {arg2 : Memref sig .tc .vmem S2560x64 .f32} {harg2 : arg2.IsWhole}
    {arg3 : Memref sig .tc .vmem S2560x1 .f32} {harg3 : arg3.IsWhole} {arg4 : Memref sig .tc .vmem S1x64 .f32} {harg4 : arg4.IsWhole}
    {arg5 : Memref sig .tc .vmem S64x128 .f32} {harg5 : arg5.IsWhole} {arg6 : Memref sig .tc .vmem S2560x128 .f32} {harg6 : arg6.IsWhole}
    {D0 D1 D2 D3 D4 D5 : Type} {X0 : D0 → Vec F S2560x64 .f32} {X1 : D1 → Vec F S2560x64 .f32} {X2 : D2 → Vec F S2560x1 .f32}
    {X3 : D3 → Vec F S1x64 .f32} {X4 : D4 → Vec F S64x128 .f32} {X5 : D5 → Vec F S2560x128 .f32}
    {x0 : Vec F S2560x64 .f32} {x1 : Vec F S2560x64 .f32} {x2 : Vec F S2560x1 .f32} {x3 : Vec F S1x64 .f32} {x4 : Vec F S64x128 .f32}
    {y : Vec F S2560x128 .f32} {R R' : sProp 𝕄}
    (h0 : ∀ d, X0 d = x0) (h1 : ∀ d, X1 d = x1) (h2 : ∀ d, X2 d = x2) (h3 : ∀ d, X3 d = x3) (h4 : ∀ d, X4 d = x4)
    (hy : y = out2_5 x0 x1 x2 x3 x4) :
    iprop(R ∗ R' ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d))
        ∗ (∃ d, owns (c : Thread nD τ) arg5 fullShare (X4 d)) ∗ (∃ d, owns (c : Thread nD τ) arg6 fullShare (X5 d)))
      ⊢ wp frame (wpE (defs₀ (F := F)) Variants.none c none) E
          (cc2__combine_transform_kernel i arg1 harg1 arg2 harg2 arg3 harg3 arg4 harg4 arg5 harg5 arg6 harg6)
          (fun _ => iprop(R ∗ R' ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare y)) := by
  simp only [cc2__combine_transform_kernel_eq_skeleton, h0, h1, h2, h3, h4, hy]; unfold cc2__combine_transform_kernel_skel
  unfold owns
  iintro ⟨HR, HR', ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩⟩
  subst hf0 hf1 hf2 hf3 hf4
  sl_exec
  sl_step
  iframe HR HR'
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ fun y => ⟨_, List.mem_singleton_self _, View.mem_set_unit_zero hz2 inb_S2560x128_S2560x128_0_0 y⟩

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2 (c : Dev nD) (t : Fin cfg2.N) : ∀ w : Fin cfg2.W, (cfg2.win w).isOut = false → ∀ d, (dat2 V c).before w t d = (dat2 V c).fetched w t d
  | ⟨0, _⟩, _, d | ⟨1, _⟩, _, d | ⟨2, _⟩, _, d | ⟨3, _⟩, _, d | ⟨4, _⟩, _, d =>
    (dat2 V c).before_in_eq_fetched _ rfl (fun _ => rfl) (fun _ _ _ => rfl) (fun _ => rfl) t d
  | ⟨5, _⟩, h, _ => Bool.noConfusion (h : true = false)

theorem body_obligation2 (c : Dev nD) : BodyObligation (dat2 (F := F) V c) (defs₀ (F := F)) Variants.none () Set.univ := fun t => by
  rw [bigSep_W2, bigSep_W2]
  exact sound_kernel2 (i := grid2.coords t) (harg1 := hstage2_0 _) (harg2 := hstage2_1 _) (harg3 := hstage2_2 _) (harg4 := hstage2_3 _)
    (harg5 := hstage2_4 _) (harg6 := hstage2_5 _)
    (fun d => (before2 V c t 0 rfl d).trans rfl) (fun d => (before2 V c t 1 rfl d).trans rfl) (fun d => (before2 V c t 2 rfl d).trans rfl)
    (fun d => (before2 V c t 3 rfl d).trans rfl) (fun d => (before2 V c t 4 rfl d).trans rfl) (after2_5 V c t)

end Cert.KernelIdeal.Fr

end
-- ==== Proof.Fr.Reg3.lean ====
import proofs.«415774_j67989332296056_2_alg».proof.Proof.Gen.KernelIdeal.Launch
import proofs.«415774_j67989332296056_2_alg».proof.Proof.Gen.KernelIdeal.Skeleton
import proofs.«415774_j67989332296056_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev t0 : Fin cfg3.N := ⟨0, by decide⟩
abbrev tl : Fin cfg3.N := ⟨39, by decide⟩

theorem lt_N3 {n : ℕ} (h : n < 40) : n < cfg3.N := lt_of_lt_of_eq h N_3.symm

def sumAcc3 (c : Dev nD) : (t : Nat) → t < 40 → Vec F S1024x128 .f32
  | 0, _ => k3_pay6 (iblk3 V c 2 t0) (iblk3 V c 0 t0) (iblk3 V c 1 t0) (iblk3 V c 3 t0) (iblk3 V c 4 t0) k3_pay3
  | t + 1, h => k3_pay6 (iblk3 V c 2 ⟨t + 1, lt_N3 h⟩) (iblk3 V c 0 ⟨t + 1, lt_N3 h⟩) (iblk3 V c 1 ⟨t + 1, lt_N3 h⟩)
      (iblk3 V c 3 ⟨t + 1, lt_N3 h⟩) (iblk3 V c 4 ⟨t + 1, lt_N3 h⟩) (sumAcc3 c t (by omega))

def cntAcc3 (c : Dev nD) : (t : Nat) → t < 40 → Vec F S1024x1 .f32
  | 0, _ => k3_pay1 (k3_pay7 (iblk3 V c 4 t0) k3_pay4)
  | t + 1, h => k3_pay1 (k3_pay7 (iblk3 V c 4 ⟨t + 1, lt_N3 h⟩) (cntAcc3 c t (by omega)))

theorem sumAcc3_zero (c : Dev nD) : sumAcc3 V c 0 (by decide) = k3_pay6 (iblk3 V c 2 t0) (iblk3 V c 0 t0) (iblk3 V c 1 t0) (iblk3 V c 3 t0) (iblk3 V c 4 t0) k3_pay3 := by
  rw [sumAcc3]

theorem sumAcc3_succ (c : Dev nD) (t : Nat) (h : t + 1 < 40) :
    sumAcc3 V c (t + 1) h = k3_pay6 (iblk3 V c 2 ⟨t + 1, lt_N3 h⟩) (iblk3 V c 0 ⟨t + 1, lt_N3 h⟩) (iblk3 V c 1 ⟨t + 1, lt_N3 h⟩)
      (iblk3 V c 3 ⟨t + 1, lt_N3 h⟩) (iblk3 V c 4 ⟨t + 1, lt_N3 h⟩) (sumAcc3 V c t (by omega)) := by
  rw [sumAcc3]

theorem cntAcc3_zero (c : Dev nD) : cntAcc3 V c 0 (by decide) = k3_pay1 (k3_pay7 (iblk3 V c 4 t0) k3_pay4) := by
  rw [cntAcc3]

theorem cntAcc3_succ (c : Dev nD) (t : Nat) (h : t + 1 < 40) :
    cntAcc3 V c (t + 1) h = k3_pay1 (k3_pay7 (iblk3 V c 4 ⟨t + 1, lt_N3 h⟩) (cntAcc3 V c t (by omega))) := by
  rw [cntAcc3]

def out3_7 (c : Dev nD) : Vec F S1024x1 .f32 :=
  k3_pay2 (sumAcc3 V c 39 (by decide)) (cntAcc3 V c 39 (by decide)) (iblk3 V c 5 tl) (iblk3 V c 6 tl)

abbrev scM3_0 : Memref sig .tc .vmem S1024x128 .f32 := Memref.whole cc3_scratch0
abbrev scM3_1 : Memref sig .tc .vmem S1024x1 .f32 := Memref.whole cc3_scratch1

def Phi3 (c : Dev nD) : (n : ℕ) → n ≤ cfg3.N → sProp 𝕄
  | 0, _ => iprop((∃ r, prngReg c r)
      ∗ Pipeline.scopedRestBut (Ix := Unit) (Name := ℕ) (U := UR sig nD τ) (Lvl := ℕ) (Val := Elt F) spec3 c [cc3_scratch0, cc3_scratch1]
      ∗ (∃ d, owns (c : Thread nD τ) scM3_0 fullShare d) ∗ (∃ d, owns (c : Thread nD τ) scM3_1 fullShare d))
  | n + 1, hn => iprop((∃ r, prngReg c r)
      ∗ Pipeline.scopedRestBut (Ix := Unit) (Name := ℕ) (U := UR sig nD τ) (Lvl := ℕ) (Val := Elt F) spec3 c [cc3_scratch0, cc3_scratch1]
      ∗ owns (c : Thread nD τ) scM3_0 fullShare (sumAcc3 V c n (lt_of_lt_of_eq hn N_3))
      ∗ owns (c : Thread nD τ) scM3_1 fullShare (cntAcc3 V c n (lt_of_lt_of_eq hn N_3)))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = out3_7 V c := by dsimp only [dat3]

theorem hin3 (c : Dev nD) : iprop((∃ r, prngReg c r) ∗ Pipeline.scopedRest (Ix := Unit) (Name := ℕ) (U := UR sig nD τ) (Lvl := ℕ) (Val := Elt F) spec3 c) ⊢ ((dat3 V c).Φ 0 : sProp 𝕄) := by
  rw [show (dat3 V c).Φ 0 = Phi3 V c 0 (Nat.zero_le _) from rfl, Phi3, scopedRest3_split]
  simp only [scM3_0, scM3_1, owns_whole]
  iintro ⟨Hg, ⟨HS0, HS1⟩, Hr⟩
  iframe

theorem hout3 (c : Dev nD) : ((dat3 V c).Φ (Fin.last cfg3.N) : sProp 𝕄) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Phi3 V c (39 + 1) (by decide) from rfl, Phi3, scopedRest3_split]
  simp only [scM3_0, scM3_1, owns_whole]
  iintro ⟨Hg, Hr, HS0, HS1⟩
  iframe Hg Hr
  isplitl [HS0] <;> (iexists _; iassumption)

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) := by
  refine ⟨?_, ?_, ?_, ?_, ?_, ?_, ?_⟩ <;>
    exact fun d => ((dat3 V c).before_in_eq_fetched _ rfl (fun _ => rfl) (fun _ _ _ => rfl) (fun _ => rfl) t d).trans rfl

theorem leaves3 (c : Dev nD) (t : Fin cfg3.N) :
    (dat3 V c).leavesExact 0 t = owns (c : Thread nD τ) (st3_0 t) fullShare (iblk3 V c 0 t) ∧ (dat3 V c).leavesExact 1 t = owns (c : Thread nD τ) (st3_1 t) fullShare (iblk3 V c 1 t) ∧ (dat3 V c).leavesExact 2 t = owns (c : Thread nD τ) (st3_2 t) fullShare (iblk3 V c 2 t) ∧ (dat3 V c).leavesExact 3 t = owns (c : Thread nD τ) (st3_3 t) fullShare (iblk3 V c 3 t) ∧ (dat3 V c).leavesExact 4 t = owns (c : Thread nD τ) (st3_4 t) fullShare (iblk3 V c 4 t) ∧ (dat3 V c).leavesExact 5 t = owns (c : Thread nD τ) (st3_5 t) fullShare (iblk3 V c 5 t) ∧ (dat3 V c).leavesExact 6 t = owns (c : Thread nD τ) (st3_6 t) fullShare (iblk3 V c 6 t) :=
  ⟨rfl, rfl, rfl, rfl, rfl, rfl, rfl⟩

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 39 :=
  (by decide +kernel : ∀ t : Fin grid3.N, cond3_1 (grid3.coords t) ↔ t.val = 39)

theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

theorem hz2 : (![0, 0] : Fin 2 → Nat) = fun _ => 0 := by funext a; fin_cases a <;> rfl

theorem read_writes_whole {S : Shape} {e : EltTy} (v : View sig .tc .vmem S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The body on whole memrefs: the first point resets the accumulators before advancing them, the last also stores the output computed from them. -/
theorem run3 (c : Dev nD) (E : Set ℕ) (i : grid3.Coords) (arg1 : Memref sig .tc .vmem S2560x128 .f32) (harg1 : arg1.IsWhole) (arg2 : Memref sig .tc .vmem S2560x128 .f32) (harg2 : arg2.IsWhole) (arg3 : Memref sig .tc .vmem S2560x1 .f32) (harg3 : arg3.IsWhole) (arg4 : Memref sig .tc .vmem S1x128 .f32) (harg4 : arg4.IsWhole) (arg5 : Memref sig .tc .vmem S1x2560 .i32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x1 .f32) (harg10 : arg10.IsWhole)
    (x0 x1 : Vec F S2560x128 .f32) (x2 : Vec F S2560x1 .f32) (x3 : Vec F S1x128 .f32) (x4 : Vec F S1x2560 .i32) (x5 : Vec F S128x1 .f32) (x6 : Vec F S1x1 .f32) (x7 o : Vec F S1024x1 .f32)
    (s0 a0 : Vec F S1024x128 .f32) (s1 a1 : Vec F S1024x1 .f32)
    (h : cond3_0 i ∧ ¬cond3_1 i ∧ a0 = k3_pay3 ∧ a1 = k3_pay4 ∧ o = x7
      ∨ ¬cond3_0 i ∧ a0 = s0 ∧ a1 = s1 ∧ (cond3_1 i ∧ o = k3_pay2 (k3_pay6 x2 x0 x1 x3 x4 s0) (k3_pay1 (k3_pay7 x4 s1)) x5 x6 ∨ ¬cond3_1 i ∧ o = x7))
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare o
            ∗ owns (c : Thread nD τ) arg9 fullShare (k3_pay6 x2 x0 x1 x3 x4 a0)
            ∗ owns (c : Thread nD τ) arg10 fullShare (k3_pay1 (k3_pay7 x4 a1))) -∗ K ⟨⟩))
      ⊢ wp frame (wpE (defs₀ (F := F)) Variants.none c none) E (cc3__final_combine_pool_kernel i arg1 harg1 arg2 harg2 arg3 harg3 arg4 harg4 arg5 harg5 arg6 harg6 arg7 harg7 arg8 harg8 arg9 harg9 arg10 harg10) K := by
  simp only [cc3__final_combine_pool_kernel_eq_skeleton]; unfold cc3__final_combine_pool_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  rcases h with ⟨hc0, hc1, rfl, rfl, rfl⟩ | ⟨hc0, rfl, rfl, ⟨hc1, rfl⟩ | ⟨hc1, rfl⟩⟩
  all_goals
    sl_exec (disch := first | exact hc0 | exact hc1)
    sl_step
    iapply Hk
    isplitl [H0]; swap; isplitl [H1]; swap; isplitl [H2]; swap; isplitl [H3]; swap; isplitl [H4]; swap
    isplitl [H5]; swap; isplitl [H6]; swap; isplitl [H7]; swap; isplitl [H8]; swap
    all_goals (iexists _; isplitr; swap; iassumption; ipureintro)
    all_goals first
      | with_reducible rfl
      | (refine (read_writes_whole _ _ hz2 _ _ _).trans ?_
         sl_unfold_run_names
         simp only [View.readAt_eq_ld, View.ld_unit_zero (S := S2560x1) hz2, View.ld_unit_zero (S := S2560x128) hz2, View.ld_unit_zero (S := S1x128) hz2, View.ld_unit_zero (S := S1x2560) hz2, View.ld_unit_zero (S := S1024x128) hz2, View.ld_unit_zero (S := S1024x1) hz2, View.ld_unit_zero (S := S128x1) hz2, View.ld_unit_zero (S := S1x1) hz2, View.readCov_unit_zero (S := S1024x128) _ hz2, View.readCov_unit_zero (S := S1024x1) _ hz2])

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

theorem sound_body3 (c : Dev nD) : ∀ t : Fin cfg3.N,
    bodyPre3 V c t ⊢ wp frame (wpE (defs₀ (F := F)) Variants.none c none) Set.univ (bodyAt3 t) (fun _ => bodyPost3 V c t)
  | ⟨0, h⟩ => by
    unfold bodyPre3 bodyPost3 bodyAt3
    have hc1 : ¬cond3_1 (grid3.coords ⟨0, h⟩) := fun hc => absurd ((hcond3_1 _).mp hc) (by decide : (0 : ℕ) ≠ 39)
    simp only [before3 V c ⟨0, h⟩, leaves3 V c ⟨0, h⟩]
    rw [Dat.leavesExact_idle (dat3 V c) 7 _ (idleAt3_7 _ hc1) (noFlush3_7 _ hc1),
      show (dat3 V c).owesAt () (Fin.succ ⟨0, h⟩) = (dat3 V c).owesAt () (Fin.castSucc ⟨0, h⟩) from rfl,
      show (dat3 V c).Φ (Fin.castSucc ⟨0, h⟩) = Phi3 V c 0 (Nat.zero_le _) from rfl,
      show (dat3 V c).Φ (Fin.succ ⟨0, h⟩) = Phi3 V c (0 + 1) h from rfl, Phi3, Phi3, sumAcc3_zero, cntAcc3_zero]
    iintro ⟨⟨Hg, Hr, ⟨%s0, HS0⟩, ⟨%s1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run3 c Set.univ (grid3.coords _) _ _ _ _ _ _ _ _ _ _ _ _ _ _ _ _ _ _ _ _ _ _ _ _ _ _ _ _ _ _ _ _ _ (.inl ⟨(hcond3_0 _).mpr rfl, hc1, rfl, rfl, rfl⟩) _)
    iframe H0 H1 H2 H3 H4 H5 H6 H7 HS0 HS1
    iintro ⟨H0, H1, H2, H3, H4, H5, H6, H7, HS0, HS1⟩
    iframe
    iexists _; iexact H7
  | ⟨n + 1, h⟩ => by
    unfold bodyPre3 bodyPost3 bodyAt3
    have hc0 : ¬cond3_0 (grid3.coords ⟨n + 1, h⟩) := fun hc => absurd ((hcond3_0 _).mp hc) (Nat.succ_ne_zero n)
    simp only [before3 V c ⟨n + 1, h⟩, leaves3 V c ⟨n + 1, h⟩]
    rw [show (dat3 V c).owesAt () (Fin.succ ⟨n + 1, h⟩) = (dat3 V c).owesAt () (Fin.castSucc ⟨n + 1, h⟩) from rfl,
      show (dat3 V c).Φ (Fin.castSucc ⟨n + 1, h⟩) = Phi3 V c (n + 1) (Nat.le_of_lt h) from rfl,
      show (dat3 V c).Φ (Fin.succ ⟨n + 1, h⟩) = Phi3 V c (n + 1 + 1) h from rfl, Phi3, Phi3]
    by_cases h1 : n + 1 = 39
    · have hc1 : cond3_1 (grid3.coords ⟨n + 1, h⟩) := (hcond3_1 _).mpr h1
      have ho : out3_7 V c = k3_pay2 (sumAcc3 V c (n + 1) (lt_of_lt_of_eq h N_3)) (cntAcc3 V c (n + 1) (lt_of_lt_of_eq h N_3)) (iblk3 V c 5 ⟨n + 1, h⟩) (iblk3 V c 6 ⟨n + 1, h⟩) := by
        obtain rfl : n = 38 := by omega
        rfl
      rw [show (dat3 V c).leavesExact 7 ⟨n + 1, h⟩ = owns (c : Thread nD τ) (st3_7 ⟨n + 1, h⟩) fullShare ((dat3 V c).after 7 ⟨n + 1, h⟩) from by
        unfold Dat.leavesExact; rw [liveAt3_7 _ hc1], after3_7, ho, sumAcc3_succ V c n, cntAcc3_succ V c n]
      iintro ⟨⟨Hg, Hr, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3 c Set.univ (grid3.coords _) _ _ _ _ _ _ _ _ _ _ _ _ _ _ _ _ _ _ _ _ _ _ _ _ _ _ _ _ _ _ _ _ _ (.inr ⟨hc0, rfl, rfl, .inl ⟨hc1, rfl⟩⟩) _)
      iframe H0 H1 H2 H3 H4 H5 H6 H7 HS0 HS1
      iintro ⟨H0, H1, H2, H3, H4, H5, H6, H7, HS0, HS1⟩
      iframe
    · have hc1 : ¬cond3_1 (grid3.coords ⟨n + 1, h⟩) := fun hc => h1 ((hcond3_1 _).mp hc)
      rw [Dat.leavesExact_idle (dat3 V c) 7 _ (idleAt3_7 _ hc1) (noFlush3_7 _ hc1), sumAcc3_succ V c n, cntAcc3_succ V c n]
      iintro ⟨⟨Hg, Hr, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3 c Set.univ (grid3.coords _) _ _ _ _ _ _ _ _ _ _ _ _ _ _ _ _ _ _ _ _ _ _ _ _ _ _ _ _ _ _ _ _ _ (.inr ⟨hc0, rfl, rfl, .inr ⟨hc1, rfl⟩⟩) _)
      iframe H0 H1 H2 H3 H4 H5 H6 H7 HS0 HS1
      iintro ⟨H0, H1, H2, H3, H4, H5, H6, H7, HS0, HS1⟩
      iframe
      iexists _; iexact H7

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.Fr.Chain.lean ====
import proofs.«415774_j67989332296056_2_alg».proof.Proof.Fr.Reg0
import proofs.«415774_j67989332296056_2_alg».proof.Proof.Fr.Reg1
import proofs.«415774_j67989332296056_2_alg».proof.Proof.Fr.Reg2
import proofs.«415774_j67989332296056_2_alg».proof.Proof.Fr.Reg3
import proofs.«415774_j67989332296056_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev ent0 : (c : Dev nD) → (b : Ref sig .tc) → Buf (Elt F) ((c : Thread nD τ).loc b) := atTc (V4 m)

def left0 (c : Dev nD) : Buf (Elt F) ((c : Thread nD τ).loc main_v14) := (dat0 (ent0 m) c).arrAt 3 cfg0.N

def leaves0 : Outs (F := F) := fun _ r c =>
  if h : r = main_v14 then h ▸ left0 m c else m ((c : Thread nD τ).loc r)

abbrev ent1 : (c : Dev nD) → (b : Ref sig .tc) → Buf (Elt F) ((c : Thread nD τ).loc b) := atTc (V8 m (leaves0 m))

def left1 (c : Dev nD) : Buf (Elt F) ((c : Thread nD τ).loc main_v27) := (dat1 (ent1 m) c).arrAt 5 cfg1.N
def leaves1 : Outs (F := F) := fun _ r c =>
  if h : r = main_v14 then h ▸ left0 m c else if h : r = main_v27 then h ▸ left1 m c else m ((c : Thread nD τ).loc r)

abbrev ent2 : (c : Dev nD) → (b : Ref sig .tc) → Buf (Elt F) ((c : Thread nD τ).loc b) := atTc (V12 m (leaves1 m))

def left2 (c : Dev nD) : Buf (Elt F) ((c : Thread nD τ).loc main_v40) := (dat2 (ent2 m) c).arrAt 5 cfg2.N
def leaves2 : Outs (F := F) := fun _ r c =>
  if h : r = main_v14 then h ▸ left0 m c else if h : r = main_v27 then h ▸ left1 m c
  else if h : r = main_v40 then h ▸ left2 m c else m ((c : Thread nD τ).loc r)

abbrev ent3 : (c : Dev nD) → (b : Ref sig .tc) → Buf (Elt F) ((c : Thread nD τ).loc b) := atTc (V18 m (leaves2 m))

def left3 (c : Dev nD) : Buf (Elt F) ((c : Thread nD τ).loc main_v56) := (dat3 (ent3 m) c).arrAt 7 cfg3.N

def leaves : Outs (F := F) := fun _ r c =>
  if h : r = main_v14 then h ▸ left0 m c else if h : r = main_v27 then h ▸ left1 m c
  else if h : r = main_v40 then h ▸ left2 m c else if h : r = main_v56 then h ▸ left3 m c else m ((c : Thread nD τ).loc r)

theorem leaves_v14 (J : ℕ) (c : Dev nD) : leaves m J main_v14 c = left0 m c := by
  unfold leaves; rw [dif_pos rfl]
theorem leaves_v27 (J : ℕ) (c : Dev nD) : leaves m J main_v27 c = left1 m c := by
  unfold leaves; rw [dif_neg (by decide), dif_pos rfl]
theorem leaves_v40 (J : ℕ) (c : Dev nD) : leaves m J main_v40 c = left2 m c := by
  unfold leaves; rw [dif_neg (by decide), dif_neg (by decide), dif_pos rfl]
theorem leaves_v56 (J : ℕ) (c : Dev nD) : leaves m J main_v56 c = left3 m c := by
  unfold leaves; rw [dif_neg (by decide), dif_neg (by decide), dif_neg (by decide), dif_pos rfl]
theorem leaves0_v14 (J : ℕ) (c : Dev nD) : leaves0 m J main_v14 c = left0 m c := by
  unfold leaves0; rw [dif_pos rfl]
theorem leaves1_v14 (J : ℕ) (c : Dev nD) : leaves1 m J main_v14 c = left0 m c := by
  unfold leaves1; rw [dif_pos rfl]
theorem leaves1_v27 (J : ℕ) (c : Dev nD) : leaves1 m J main_v27 c = left1 m c := by
  unfold leaves1; rw [dif_neg (by decide), dif_pos rfl]
theorem leaves2_v14 (J : ℕ) (c : Dev nD) : leaves2 m J main_v14 c = left0 m c := by
  unfold leaves2; rw [dif_pos rfl]
theorem leaves2_v27 (J : ℕ) (c : Dev nD) : leaves2 m J main_v27 c = left1 m c := by
  unfold leaves2; rw [dif_neg (by decide), dif_pos rfl]
theorem leaves2_v40 (J : ℕ) (c : Dev nD) : leaves2 m J main_v40 c = left2 m c := by
  unfold leaves2; rw [dif_neg (by decide), dif_neg (by decide), dif_pos rfl]

theorem V8_leaves (c : Dev nD) : V8 m (leaves m) c = V8 m (leaves0 m) c := by
  simp only [V8, V7, V6, V5, leaves_v14, leaves0_v14]

theorem V12_leaves (c : Dev nD) : V12 m (leaves m) c = V12 m (leaves1 m) c := by
  simp only [V12, V11, V10, V9, V8, V7, V6, V5, leaves_v14, leaves_v27, leaves1_v14, leaves1_v27]

theorem V18_leaves (c : Dev nD) : V18 m (leaves m) c = V18 m (leaves2 m) c := by
  simp only [V18, V17, V16, V15, V14, V13, V12, V11, V10, V9, V8, V7, V6, V5, leaves_v14, leaves_v27, leaves_v40,
    leaves2_v14, leaves2_v27, leaves2_v40]

end Cert.KernelIdeal.Fr

end
-- ==== Proof.Fr.Run.lean ====
import proofs.«415774_j67989332296056_2_alg».proof.Proof.Fr.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hA0 (c : Dev nD) (w) : (dat0 (ent0 m) c).A w = atTc (V4 m) c (Pipeline.arrRef spec0 w) := A_eq0 _ c w
theorem hA1 (c : Dev nD) (w) : (dat1 (ent1 m) c).A w = atTc (V8 m (leaves m)) c (Pipeline.arrRef spec1 w) :=
  (A_eq1 _ c w).trans (congrFun (V8_leaves m c) _).symm
theorem hA2 (c : Dev nD) (w) : (dat2 (ent2 m) c).A w = atTc (V12 m (leaves m)) c (Pipeline.arrRef spec2 w) :=
  (A_eq2 _ c w).trans (congrFun (V12_leaves m c) _).symm
theorem hA3 (c : Dev nD) (w) : (dat3 (ent3 m) c).A w = atTc (V18 m (leaves m)) c (Pipeline.arrRef spec3 w) :=
  (A_eq3 _ c w).trans (congrFun (V18_leaves m c) _).symm

theorem V5_out (c : Dev nD) : V5 m (leaves m) c main_v14 = left0 m c :=
  (Function.update_self _ _ _).trans (leaves_v14 m 5 c)

theorem hF0 (c : Dev nD) (w : Fin 4) : (dat0 (ent0 m) c).arrAt w cfg0.N = atTc (V5 m (leaves m)) c (Pipeline.arrRef spec0 w) := by
  by_cases h : w = 3
  · subst h; exact (V5_out m c).symm
  · obtain ⟨hk, hr⟩ := (by decide : ∀ w : Fin 4, w ≠ 3 → (cfg0.win w).isOut = false ∧ Pipeline.arrRef spec0 w ∉ ([main_v14] : List (Ref sig .tc))) w h
    exact (((dat0 (ent0 m) c).arrAt_in w hk _).trans (hA0 m c w)).trans (V5_of m (leaves m) c _ hr).symm

theorem hrest0 (c : Dev nD) (b) (hb : b ∉ Finset.univ.image (Pipeline.arrRef spec0)) : atTc (V5 m (leaves m)) c b = atTc (V4 m) c b :=
  V5_of m (leaves m) c b fun h => hb (Finset.mem_image.mpr ⟨3, Finset.mem_univ _, (List.mem_singleton.mp h).symm⟩)

theorem V9_out (c : Dev nD) : V9 m (leaves m) c main_v27 = left1 m c :=
  (Function.update_self _ _ _).trans (leaves_v27 m 9 c)

theorem hF1 (c : Dev nD) (w : Fin 6) : (dat1 (ent1 m) c).arrAt w cfg1.N = atTc (V9 m (leaves m)) c (Pipeline.arrRef spec1 w) := by
  by_cases h : w = 5
  · subst h; exact (V9_out m c).symm
  · obtain ⟨hk, hr⟩ := (by decide : ∀ w : Fin 6, w ≠ 5 → (cfg1.win w).isOut = false ∧ Pipeline.arrRef spec1 w ∉ ([main_v27] : List (Ref sig .tc))) w h
    exact (((dat1 (ent1 m) c).arrAt_in w hk _).trans (hA1 m c w)).trans (V9_of m (leaves m) c _ hr).symm

theorem hrest1 (c : Dev nD) (b) (hb : b ∉ Finset.univ.image (Pipeline.arrRef spec1)) : atTc (V9 m (leaves m)) c b = atTc (V8 m (leaves m)) c b :=
  V9_of m (leaves m) c b fun h => hb (Finset.mem_image.mpr ⟨5, Finset.mem_univ _, (List.mem_singleton.mp h).symm⟩)

theorem V13_out (c : Dev nD) : V13 m (leaves m) c main_v40 = left2 m c :=
  (Function.update_self _ _ _).trans (leaves_v40 m 13 c)

theorem hF2 (c : Dev nD) (w : Fin 6) : (dat2 (ent2 m) c).arrAt w cfg2.N = atTc (V13 m (leaves m)) c (Pipeline.arrRef spec2 w) := by
  by_cases h : w = 5
  · subst h; exact (V13_out m c).symm
  · obtain ⟨hk, hr⟩ := (by decide : ∀ w : Fin 6, w ≠ 5 → (cfg2.win w).isOut = false ∧ Pipeline.arrRef spec2 w ∉ ([main_v40] : List (Ref sig .tc))) w h
    exact (((dat2 (ent2 m) c).arrAt_in w hk _).trans (hA2 m c w)).trans (V13_of m (leaves m) c _ hr).symm

theorem hrest2 (c : Dev nD) (b) (hb : b ∉ Finset.univ.image (Pipeline.arrRef spec2)) : atTc (V13 m (leaves m)) c b = atTc (V12 m (leaves m)) c b :=
  V13_of m (leaves m) c b fun h => hb (Finset.mem_image.mpr ⟨5, Finset.mem_univ _, (List.mem_singleton.mp h).symm⟩)

theorem V19_out (c : Dev nD) : V19 m (leaves m) c main_v56 = left3 m c :=
  (Function.update_self _ _ _).trans (leaves_v56 m 19 c)

theorem hF3 (c : Dev nD) (w : Fin 8) : (dat3 (ent3 m) c).arrAt w cfg3.N = atTc (V19 m (leaves m)) c (Pipeline.arrRef spec3 w) := by
  by_cases h : w = 7
  · subst h; exact (V19_out m c).symm
  · obtain ⟨hk, hr⟩ := (by decide : ∀ w : Fin 8, w ≠ 7 → (cfg3.win w).isOut = false ∧ Pipeline.arrRef spec3 w ∉ ([main_v56] : List (Ref sig .tc))) w h
    exact (((dat3 (ent3 m) c).arrAt_in w hk _).trans (hA3 m c w)).trans (V19_of m (leaves m) c _ hr).symm

theorem hrest3 (c : Dev nD) (b) (hb : b ∉ Finset.univ.image (Pipeline.arrRef spec3)) : atTc (V19 m (leaves m)) c b = atTc (V18 m (leaves m)) c b :=
  V19_of m (leaves m) c b fun h => hb (Finset.mem_image.mpr ⟨7, Finset.mem_univ _, (List.mem_singleton.mp h).symm⟩)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

def pdats : (p : Fin 4) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c

theorem owesIn {cfg : Cfg sig Λ₀} {c : Dev nD} (dat : Dat τ (Elt F) Unit ℕ (UR sig nD τ) ℕ cfg c) (t : Fin (cfg.N + 1))
    (h0 : dat.owed t = 0) (hr : dat.recorded t = Set.univ) : iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

theorem owesOut {cfg : Cfg sig Λ₀} {c : Dev nD} (dat : Dat τ (Elt F) Unit ℕ (UR sig nD τ) ℕ cfg c) (t : Fin (cfg.N + 1))
    (h0 : dat.owed t = 0) : (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

-- entering a region: its arrays are split out of the buffers held; everything else passes by
theorem enter {c : Dev nD} {H A Z OA : sProp 𝕄} (hsplit : H ⊢ iprop(A ∗ Z)) (hO : iprop(∃ W, owes (c : Thread nD τ) (0 : CellTallies nD τ sig Unit) W) ⊢ OA) :
    iprop(iprop(H ∗ R c) ∗ emp ∗ levAts L lv) ⊢ |={Set.univ}=> iprop(A ∗ emp ∗ OA ∗ (∃ r, prngReg c r) ∗ Z) := by
  iintro ⟨⟨Hub, Hp, HO⟩, -, -⟩
  ihave H := hsplit $$ Hub
  icases H with ⟨Ha, Hrest⟩
  imodintro
  isplitl [Ha]; · iexact Ha
  isplitr; · iempintro
  isplitl [HO]; · iapply hO; iexact HO
  isplitl [Hp]; · iexact Hp
  iexact Hrest

-- leaving it: the arrays are put back beside the rest
theorem leave {c : Dev nD} {H A Z OA : sProp 𝕄} (hjoin : iprop(A ∗ Z) ⊢ H) (hO : OA ⊢ iprop(∃ W, owes (c : Thread nD τ) (0 : CellTallies nD τ sig Unit) W)) :
    iprop(A ∗ OA ∗ (∃ r, prngReg c r) ∗ Z) ⊢ |={Set.univ}=> iprop(H ∗ R c) := by
  iintro ⟨Ha, HO, HY, Hrest⟩
  imodintro
  isplitl [Ha Hrest]
  · iapply hjoin; isplitl [Ha] <;> iassumption
  isplitl [HY]; · iexact HY
  iapply hO; iexact HO

theorem dropMid {X S : sProp 𝕄} : iprop(X ∗ emp ∗ S) ⊢ iprop(X ∗ S) := by
  iintro ⟨Hp, -, Hr⟩; isplitl [Hp]; · iexact Hp
  iexact Hr

theorem addMid {X S : sProp 𝕄} : iprop(X ∗ S) ⊢ iprop(X ∗ emp ∗ S) := by
  iintro ⟨Hp, Hr⟩; isplitl [Hp]; · iexact Hp
  isplitr; · iempintro
  iexact Hr

theorem prefEq (p : Fin 4) (c : Dev nD) (q) (V) :
    (Pipeline.prefHeld (Ix := Unit) (Name := ℕ) (U := UR sig nD τ) (Lvl := ℕ) (Val := Elt F) (pcfgs (F := F) p).pre c q V : sProp 𝕄) = BI.emp := by
  unfold Pipeline.prefHeld
  rw [show (Finset.univ : Finset (Fin 0)) = ∅ from rfl, BI.bigSep_empty]

-- one kernel region among the host stretches: entered with every buffer at `Vin`, left at `Vout`, which differs from `Vin` at the region's arrays only
set_option backward.isDefEq.respectTransparency.types false in
def mkReg (p : Fin 4) (ln : Pipeline.LaunchFacts (nD := nD) (τ := τ) cfgs p) (Vin Vout : (c : Dev nD) → Valuation τ sig (Elt F))
    (hb : ∀ c, BodyObligation (pdats m p c) (defs₀ (F := F)) 𝒱₀ () Set.univ)
    (h0 : ∀ c t, (pdats m p c).owed t = 0) (hr : ∀ c, (pdats m p c).recorded 0 = Set.univ) (hq : ∀ c w, (pdats m p c).q w = fullShare)
    (hA : ∀ c w, (pdats m p c).A w = atTc Vin c (Pipeline.arrRef (cfgs p).spec w))
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b)
    (hin : ∀ c, iprop((∃ r, prngReg c r) ∗ Pipeline.scopedRest (Ix := Unit) (Name := ℕ) (U := UR sig nD τ) (Lvl := ℕ) (Val := Elt F) (cfgs p).spec c) ⊢ ((pdats m p c).Φ 0 : sProp 𝕄))
    (hout : ∀ c, ((pdats m p c).Φ (Fin.last _) : sProp 𝕄) ⊢ iprop((∃ r, prngReg c r) ∗ Pipeline.scopedRest (Ix := Unit) (Name := ℕ) (U := UR sig nD τ) (Lvl := ℕ) (Val := Elt F) (cfgs p).spec c)) :
    Pipeline.RegionSeg (pcfgs (F := F)) Gen.adm (pdats m) () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    have hsplit := Pipeline.arrays_of_unscopedBufs (p := p) (pcfgs (F := F)) Gen.adm (pdats m) ln.win ln.arr_whole c
      ((pdats m p c).share_full (hq c)) (atTc Vin c) (hA c)
    rw [Pipeline.unscopedBufs_held] at hsplit
    rw [Pipeline.ownSems0_none, prefEq p]
    exact enter hsplit (owesIn _ _ (h0 c 0) (hr c))
  hin c := by rw [prefEq p]; exact dropMid.trans (hin c)
  hout c := by rw [Pipeline.ownSems0_none]; exact (hout c).trans addMid
  hexit c := by
    have hjoin := Pipeline.unscopedBufs_of_arrays (p := p) (pcfgs (F := F)) Gen.adm (Ix := Unit) (Name := ℕ) (U := UR sig nD τ) (Lvl := ℕ)
      ln.win ln.arr_whole c (pdats m) ((pdats m p c).share_full (hq c))
      (atTc Vin c) (atTc Vout c) ((pdats m p c).arrAt · (cfgs p).N) (hF c) (hrest c)
    rw [Pipeline.unscopedBufs_held] at hjoin
    exact leave hjoin (owesOut _ _ (h0 c _))

theorem inΦA {gr W : ℕ} {spec : Fin W → Pipeline.WinSpec sig gr} (c : Dev nD) : iprop((∃ r, prngReg c r) ∗ Pipeline.scopedRest (Ix := Unit) (Name := ℕ) (U := UR sig nD τ) (Lvl := ℕ) (Val := Elt F) spec c) ⊢ (Pipeline.ΦA spec c : sProp 𝕄) :=
  by unfold Pipeline.ΦA; exact Laws.sep_comm.1
theorem outΦA {gr W : ℕ} {spec : Fin W → Pipeline.WinSpec sig gr} (c : Dev nD) : (Pipeline.ΦA spec c : sProp 𝕄) ⊢ iprop((∃ r, prngReg c r) ∗ Pipeline.scopedRest (Ix := Unit) (Name := ℕ) (U := UR sig nD τ) (Lvl := ℕ) (Val := Elt F) spec c) :=
  by unfold Pipeline.ΦA; exact Laws.sep_comm.1

def reg0 := mkReg m 0 launch0 (V4 m) (V5 m (leaves m)) (fun c => body_obligation0 (ent0 m) c) (fun _ _ => rfl) (fun _ => rfl) (fun _ _ => rfl)
  (hA0 m) (hF0 m) (hrest0 m) inΦA outΦA
def reg1 := mkReg m 1 launch1 (V8 m (leaves m)) (V9 m (leaves m)) (fun c => body_obligation1 (ent1 m) c) (fun _ _ => rfl) (fun _ => rfl) (fun _ _ => rfl)
  (hA1 m) (hF1 m) (hrest1 m) inΦA outΦA
def reg2 := mkReg m 2 launch2 (V12 m (leaves m)) (V13 m (leaves m)) (fun c => body_obligation2 (ent2 m) c) (fun _ _ => rfl) (fun _ => rfl) (fun _ _ => rfl)
  (hA2 m) (hF2 m) (hrest2 m) inΦA outΦA
def reg3 := mkReg m 3 launch3 (V18 m (leaves m)) (V19 m (leaves m)) (fun c => body_obligation3 (ent3 m) c) (fun _ _ => rfl) (fun _ => rfl) (fun _ _ => rfl)
  (hA3 m) (hF3 m) (hrest3 m) (hin3 (ent3 m)) (hout3 (ent3 m))

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE4 (c : Dev nD) : E (F := F) 4 c ⊢ (iprop(∃ W, owes (c : Thread nD τ) (0 : CellTallies nD τ sig Unit) W) : sProp 𝕄) := by
  iintro ⟨-, HO⟩; iexact HO

-- a final memory on core `c`: the result buffer at `o`, every argument's buffer as launched
abbrev Ends (c : Dev nD) (o : Buf (Elt F) ((c.tc : Thread nD τ).loc main_v56)) (mem : (ℓ : Loc nD τ sig) → Buf (Elt F) ℓ) : Prop :=
  mem ((c.tc : Thread nD τ).loc main_v56) = o
  ∧ mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)

set_option backward.isDefEq.respectTransparency.types false in
theorem run_out (ρ : Dev nD → PrngReg) : θ_run defs (onTc (τ := τ) (main (F := F))) ⟨m, fun _ => 0, ρ⟩
    (fun r => ∀ c : Dev nD, Ends m c (left3 m c) r.2.mem) := by
  refine Pipeline.θ_run_regions_kit_dev (pcfgs (F := F)) Gen.adm (pdats m) () cellOf_inj emb₁ defs₀ 𝒱₀ L lv m ρ main
    (Gen.segs m (leaves m) 𝒱₀ L lv E () (pdats m) (reg0 m) (reg1 m) (reg2 m) (reg3 m))
    (fun c Q => by
      rewrite [main_chain c, Pipeline.Seg.run_eq_chain,
        show (Gen.segs m (leaves m) 𝒱₀ L lv E () (pdats m) (reg0 m) (reg1 m) (reg2 m) (reg3 m) c).map Pipeline.Seg.prog = [
          StableHlo.seq hostOps0, StableHlo.seq hostOps0_1, StableHlo.seq hostOps0_2, StableHlo.seq hostOps0_3,
          Prog.lift (.customCall (Pipeline.entry 0) ()),
          StableHlo.seq hostOps1, StableHlo.seq hostOps1_1, StableHlo.seq hostOps1_2,
          Prog.lift (.customCall (Pipeline.entry 1) ()),
          StableHlo.seq hostOps2, StableHlo.seq hostOps2_1, StableHlo.seq hostOps2_2,
          Prog.lift (.customCall (Pipeline.entry 2) ()),
          StableHlo.seq hostOps3, StableHlo.seq hostOps3_1, StableHlo.seq hostOps3_2, StableHlo.seq hostOps3_3, StableHlo.seq hostOps3_4,
          Prog.lift (.customCall (Pipeline.entry 3) ()) ] from rfl]
      exact .rfl)
    (fun c => by simp only [Gen.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m (leaves m) c))
    (hch := fun c => ⟨.rfl, .rfl, .rfl, .rfl, .rfl, .rfl, .rfl, .rfl, .rfl, .rfl, .rfl, .rfl, .rfl, .rfl, .rfl, .rfl, .rfl, .rfl, .rfl, sep_mono .rfl (hE4 c)⟩)
    (hinit := ?_) (QY := fun c s => Ends m c (left3 m c) s.mem)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V19 m (leaves m) c) s') $$ [Hh HSI]
    · isplitl [Hh] <;> iassumption
    icases Hr with ⟨%h, HSI⟩
    imodintro
    isplitr
    · ipureintro
      have rd (b : Ref sig .tc) (hb) := h (Proc.devRef .tc b) (Finset.mem_filter.mpr ⟨StableHlo.devRef_mem_tcRefs b, hb⟩)
      exact ⟨(rd main_v56 (by decide)).trans (V19_out m c),
        (rd main_arg0 (by decide)).trans (V19_main_arg0 m (leaves m) c),
        (rd main_arg1 (by decide)).trans (V19_main_arg1 m (leaves m) c),
        (rd main_arg2 (by decide)).trans (V19_main_arg2 m (leaves m) c),
        (rd main_arg3 (by decide)).trans (V19_main_arg3 m (leaves m) c),
        (rd main_arg4 (by decide)).trans (V19_main_arg4 m (leaves m) c),
        (rd main_arg5 (by decide)).trans (V19_main_arg5 m (leaves m) c),
        (rd main_arg6 (by decide)).trans (V19_main_arg6 m (leaves m) c),
        (rd main_arg7 (by decide)).trans (V19_main_arg7 m (leaves m) c),
        (rd main_arg8 (by decide)).trans (V19_main_arg8 m (leaves m) c),
        (rd main_arg9 (by decide)).trans (V19_main_arg9 m (leaves m) c),
        (rd main_arg10 (by decide)).trans (V19_main_arg10 m (leaves m) c)⟩
    · iexact HSI

end Cert.KernelIdeal.Fr

end
-- ==== Proof.FrK.Reg0.lean ====
import proofs.«415774_j67989332296056_2_alg».proof.Proof.Gen.Kernel.Launch
import proofs.«415774_j67989332296056_2_alg».proof.Proof.Gen.Kernel.Skeleton
import proofs.«415774_j67989332296056_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2560x128 := Rect.unit (s := S2560x128) ![0, 0] S2560x128.size inb_S2560x128_S2560x128_0_0
abbrev r0_1 : Rect S128x32 := Rect.unit (s := S128x32) ![0, 0] S128x32.size inb_S128x32_S128x32_0_0
abbrev r0_2 : Rect S2560x1 := Rect.unit (s := S2560x1) ![0, 0] S2560x1.size inb_S2560x1_S2560x1_0_0
abbrev r0_3 : Rect S2560x32 := Rect.unit (s := S2560x32) ![0, 0] S2560x32.size inb_S2560x32_S2560x32_0_0

def out0_3 (x0 : Vec F S2560x128 .f32) (x1 : Vec F S128x32 .f32) (x2 : Vec F S2560x1 .f32) : Vec F S2560x32 .f32 :=
  View.canon [⟨r0_3, k0_pay1 (View.ld x0 r0_0) (View.ld x1 r0_1) (View.ld x2 r0_2)⟩]

theorem zero2 : (![0, 0] : Fin 2 → Nat) = fun _ => 0 := by
  funext a; match a with | ⟨0, _⟩ => rfl | ⟨1, _⟩ => rfl

theorem out0_3_eq (x0 : Vec F S2560x128 .f32) (x1 : Vec F S128x32 .f32) (x2 : Vec F S2560x1 .f32) :
    out0_3 x0 x1 x2 = k0_pay1 x0 x1 x2 := by
  unfold out0_3
  rw [View.canon_unit_zero zero2, View.ld_unit_zero (S := S2560x128) zero2, View.ld_unit_zero (S := S128x32) zero2,
    View.ld_unit_zero (S := S2560x1) zero2]

/-- Under any frame, with input `k` read as `x_k` whatever `d` is, the body keeps the inputs and leaves the output at `y`. -/
theorem sound_kernel0 {c : Dev nD} {E : Set ℕ} {i : grid0.Coords}
    {arg1 : Memref sig .tc .vmem S2560x128 .f32} {harg1 : arg1.IsWhole} {arg2 : Memref sig .tc .vmem S128x32 .f32} {harg2 : arg2.IsWhole}
    {arg3 : Memref sig .tc .vmem S2560x1 .f32} {harg3 : arg3.IsWhole} {arg4 : Memref sig .tc .vmem S2560x32 .f32} {harg4 : arg4.IsWhole}
    {D0 D1 D2 D3 : Type} {X0 : D0 → Vec F S2560x128 .f32} {X1 : D1 → Vec F S128x32 .f32} {X2 : D2 → Vec F S2560x1 .f32}
    {X3 : D3 → Vec F S2560x32 .f32} {x0 : Vec F S2560x128 .f32} {x1 : Vec F S128x32 .f32} {x2 : Vec F S2560x1 .f32}
    {y : Vec F S2560x32 .f32} {R R' : sProp 𝕄}
    (h0 : ∀ d, X0 d = x0) (h1 : ∀ d, X1 d = x1) (h2 : ∀ d, X2 d = x2) (hy : y = out0_3 x0 x1 x2) :
    iprop(R ∗ R' ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d)))
      ⊢ wp frame (wpE (defs₀ (F := F)) Variants.none c none) E (cc0__dense_scaled_kernel i arg1 harg1 arg2 harg2 arg3 harg3 arg4 harg4)
          (fun _ => iprop(R ∗ R' ∗ owns (c : Thread nD τ) arg1 fullShare x0 ∗ owns (c : Thread nD τ) arg2 fullShare x1
            ∗ owns (c : Thread nD τ) arg3 fullShare x2 ∗ owns (c : Thread nD τ) arg4 fullShare y)) := by
  simp only [cc0__dense_scaled_kernel_eq_skeleton, h0, h1, h2, hy]; unfold cc0__dense_scaled_kernel_skel
  unfold owns
  iintro ⟨HR, HR', ⟨%_, %f0, %hf0, H0⟩, ⟨%_, %f1, %hf1, H1⟩, ⟨%_, %f2, %hf2, H2⟩, ⟨%_, %f3, -, H3⟩⟩
  subst hf0 hf1 hf2
  sl_exec
  sl_step
  iframe HR HR'
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ fun y => ⟨_, List.mem_singleton_self _, View.mem_set_unit_zero zero2 inb_S2560x32_S2560x32_0_0 y⟩

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_3 (c : Dev nD) (t : Fin cfg0.N) :
    (dat0 V c).after 3 t = out0_3 (iblk0 V c 0 t) (iblk0 V c 1 t) (iblk0 V c 2 t) := by dsimp only [dat0]

theorem before0 (c : Dev nD) (t : Fin cfg0.N) : ∀ w : Fin cfg0.W, (cfg0.win w).isOut = false → ∀ d, (dat0 V c).before w t d = (dat0 V c).fetched w t d
  | ⟨0, _⟩, _, d | ⟨1, _⟩, _, d | ⟨2, _⟩, _, d => (dat0 V c).before_in_eq_fetched _ rfl (fun _ => rfl) (fun _ _ _ => rfl) (fun _ => rfl) t d
  | ⟨3, _⟩, h, _ => Bool.noConfusion (h : true = false)

theorem body_obligation0 (c : Dev nD) : BodyObligation (dat0 (F := F) V c) (defs₀ (F := F)) Variants.none () Set.univ := fun t => by
  rw [bigSep_W0, bigSep_W0]
  exact sound_kernel0 (i := grid0.coords t) (harg1 := hstage0_0 _) (harg2 := hstage0_1 _) (harg3 := hstage0_2 _) (harg4 := hstage0_3 _)
    (fun d => (before0 V c t 0 rfl d).trans rfl) (fun d => (before0 V c t 1 rfl d).trans rfl) (fun d => (before0 V c t 2 rfl d).trans rfl)
    (after0_3 V c t)

end Cert.Kernel.Fr

end
-- ==== Proof.FrK.Reg1.lean ====
import proofs.«415774_j67989332296056_2_alg».proof.Proof.Gen.Kernel.Launch
import proofs.«415774_j67989332296056_2_alg».proof.Proof.Gen.Kernel.Skeleton
import proofs.«415774_j67989332296056_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2560x1 := Rect.unit (s := S2560x1) ![0, 0] S2560x1.size inb_S2560x1_S2560x1_0_0
abbrev r1_1 : Rect S2560x32 := Rect.unit (s := S2560x32) ![0, 0] S2560x32.size inb_S2560x32_S2560x32_0_0
abbrev r1_2 : Rect S1x32 := Rect.unit (s := S1x32) ![0, 0] S1x32.size inb_S1x32_S1x32_0_0
abbrev r1_3 : Rect S32x64 := Rect.unit (s := S32x64) ![0, 0] S32x64.size inb_S32x64_S32x64_0_0
abbrev r1_4 : Rect S2560x64 := Rect.unit (s := S2560x64) ![0, 0] S2560x64.size inb_S2560x64_S2560x64_0_0

def out1_5 (x0 : Vec F S2560x32 .f32) (x1 : Vec F S2560x32 .f32) (x2 : Vec F S2560x1 .f32) (x3 : Vec F S1x32 .f32) (x4 : Vec F S32x64 .f32) : Vec F S2560x64 .f32 :=
  View.canon [⟨r1_4, k1_pay1 (View.ld x2 r1_0) (View.ld x0 r1_1) (View.ld x1 r1_1) (View.ld x3 r1_2) (View.ld x4 r1_3) (View.ld x2 r1_0)⟩]

theorem hz1 : (![0, 0] : Fin 2 → Nat) = fun _ => 0 := by
  funext a; match a with | ⟨0, _⟩ => rfl | ⟨1, _⟩ => rfl

theorem out1_5_eq (x0 : Vec F S2560x32 .f32) (x1 : Vec F S2560x32 .f32) (x2 : Vec F S2560x1 .f32) (x3 : Vec F S1x32 .f32) (x4 : Vec F S32x64 .f32) :
    out1_5 x0 x1 x2 x3 x4 = k1_pay1 x2 x0 x1 x3 x4 x2 := by
  unfold out1_5
  rw [View.canon_unit_zero hz1, View.ld_unit_zero (S := S2560x1) hz1, View.ld_unit_zero (S := S2560x32) hz1,
    View.ld_unit_zero (S := S2560x32) hz1, View.ld_unit_zero (S := S1x32) hz1, View.ld_unit_zero (S := S32x64) hz1]

/-- Under any frame, with input `k` read as `x_k` whatever `d` is, the body keeps the inputs and leaves the output at `y`. -/
theorem sound_kernel1 {c : Dev nD} {E : Set ℕ} {i : grid1.Coords}
    {arg1 : Memref sig .tc .vmem S2560x32 .f32} {harg1 : arg1.IsWhole} {arg2 : Memref sig .tc .vmem S2560x32 .f32} {harg2 : arg2.IsWhole}
    {arg3 : Memref sig .tc .vmem S2560x1 .f32} {harg3 : arg3.IsWhole} {arg4 : Memref sig .tc .vmem S1x32 .f32} {harg4 : arg4.IsWhole}
    {arg5 : Memref sig .tc .vmem S32x64 .f32} {harg5 : arg5.IsWhole} {arg6 : Memref sig .tc .vmem S2560x64 .f32} {harg6 : arg6.IsWhole}
    {D0 D1 D2 D3 D4 D5 : Type} {X0 : D0 → Vec F S2560x32 .f32} {X1 : D1 → Vec F S2560x32 .f32} {X2 : D2 → Vec F S2560x1 .f32}
    {X3 : D3 → Vec F S1x32 .f32} {X4 : D4 → Vec F S32x64 .f32} {X5 : D5 → Vec F S2560x64 .f32}
    {x0 : Vec F S2560x32 .f32} {x1 : Vec F S2560x32 .f32} {x2 : Vec F S2560x1 .f32} {x3 : Vec F S1x32 .f32} {x4 : Vec F S32x64 .f32}
    {y : Vec F S2560x64 .f32} {R R' : sProp 𝕄}
    (h0 : ∀ d, X0 d = x0) (h1 : ∀ d, X1 d = x1) (h2 : ∀ d, X2 d = x2) (h3 : ∀ d, X3 d = x3) (h4 : ∀ d, X4 d = x4)
    (hy : y = out1_5 x0 x1 x2 x3 x4) :
    iprop(R ∗ R' ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d))
        ∗ (∃ d, owns (c : Thread nD τ) arg5 fullShare (X4 d)) ∗ (∃ d, owns (c : Thread nD τ) arg6 fullShare (X5 d)))
      ⊢ wp frame (wpE (defs₀ (F := F)) Variants.none c none) E
          (cc1__combine_transform_kernel i arg1 harg1 arg2 harg2 arg3 harg3 arg4 harg4 arg5 harg5 arg6 harg6)
          (fun _ => iprop(R ∗ R' ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare y)) := by
  simp only [cc1__combine_transform_kernel_eq_skeleton, h0, h1, h2, h3, h4, hy]; unfold cc1__combine_transform_kernel_skel
  unfold owns
  iintro ⟨HR, HR', ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩⟩
  subst hf0 hf1 hf2 hf3 hf4
  sl_exec
  sl_step
  iframe HR HR'
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ fun y => ⟨_, List.mem_singleton_self _, View.mem_set_unit_zero hz1 inb_S2560x64_S2560x64_0_0 y⟩

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) : ∀ w : Fin cfg1.W, (cfg1.win w).isOut = false → ∀ d, (dat1 V c).before w t d = (dat1 V c).fetched w t d
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨5, _⟩, h, _ => Bool.noConfusion (h : true = false)

theorem body_obligation1 (c : Dev nD) : BodyObligation (dat1 (F := F) V c) (defs₀ (F := F)) Variants.none () Set.univ := fun t => by
  rw [bigSep_W1, bigSep_W1]
  exact sound_kernel1 (i := grid1.coords t) (harg1 := hstage1_0 _) (harg2 := hstage1_1 _) (harg3 := hstage1_2 _) (harg4 := hstage1_3 _)
    (harg5 := hstage1_4 _) (harg6 := hstage1_5 _)
    (fun d => (before1 V c t 0 rfl d).trans rfl) (fun d => (before1 V c t 1 rfl d).trans rfl) (fun d => (before1 V c t 2 rfl d).trans rfl)
    (fun d => (before1 V c t 3 rfl d).trans rfl) (fun d => (before1 V c t 4 rfl d).trans rfl) (after1_5 V c t)

end Cert.Kernel.Fr

end
-- ==== Proof.FrK.Reg2.lean ====
import proofs.«415774_j67989332296056_2_alg».proof.Proof.Gen.Kernel.Launch
import proofs.«415774_j67989332296056_2_alg».proof.Proof.Gen.Kernel.Skeleton
import proofs.«415774_j67989332296056_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2560x1 := Rect.unit (s := S2560x1) ![0, 0] S2560x1.size inb_S2560x1_S2560x1_0_0
abbrev r2_1 : Rect S2560x64 := Rect.unit (s := S2560x64) ![0, 0] S2560x64.size inb_S2560x64_S2560x64_0_0
abbrev r2_2 : Rect S1x64 := Rect.unit (s := S1x64) ![0, 0] S1x64.size inb_S1x64_S1x64_0_0
abbrev r2_3 : Rect S64x128 := Rect.unit (s := S64x128) ![0, 0] S64x128.size inb_S64x128_S64x128_0_0
abbrev r2_4 : Rect S2560x128 := Rect.unit (s := S2560x128) ![0, 0] S2560x128.size inb_S2560x128_S2560x128_0_0

def out2_5 (x0 : Vec F S2560x64 .f32) (x1 : Vec F S2560x64 .f32) (x2 : Vec F S2560x1 .f32) (x3 : Vec F S1x64 .f32) (x4 : Vec F S64x128 .f32) : Vec F S2560x128 .f32 :=
  View.canon [⟨r2_4, k2_pay1 (View.ld x2 r2_0) (View.ld x0 r2_1) (View.ld x1 r2_1) (View.ld x3 r2_2) (View.ld x4 r2_3) (View.ld x2 r2_0)⟩]

theorem hz2 : (![0, 0] : Fin 2 → Nat) = fun _ => 0 := by
  funext a; match a with | ⟨0, _⟩ => rfl | ⟨1, _⟩ => rfl

theorem out2_5_eq (x0 : Vec F S2560x64 .f32) (x1 : Vec F S2560x64 .f32) (x2 : Vec F S2560x1 .f32) (x3 : Vec F S1x64 .f32) (x4 : Vec F S64x128 .f32) :
    out2_5 x0 x1 x2 x3 x4 = k2_pay1 x2 x0 x1 x3 x4 x2 := by
  unfold out2_5
  rw [View.canon_unit_zero hz2, View.ld_unit_zero (S := S2560x1) hz2, View.ld_unit_zero (S := S2560x64) hz2,
    View.ld_unit_zero (S := S2560x64) hz2, View.ld_unit_zero (S := S1x64) hz2, View.ld_unit_zero (S := S64x128) hz2]

/-- Under any frame, with input `k` read as `x_k` whatever `d` is, the body keeps the inputs and leaves the output at `y`. -/
theorem sound_kernel2 {c : Dev nD} {E : Set ℕ} {i : grid2.Coords}
    {arg1 : Memref sig .tc .vmem S2560x64 .f32} {harg1 : arg1.IsWhole} {arg2 : Memref sig .tc .vmem S2560x64 .f32} {harg2 : arg2.IsWhole}
    {arg3 : Memref sig .tc .vmem S2560x1 .f32} {harg3 : arg3.IsWhole} {arg4 : Memref sig .tc .vmem S1x64 .f32} {harg4 : arg4.IsWhole}
    {arg5 : Memref sig .tc .vmem S64x128 .f32} {harg5 : arg5.IsWhole} {arg6 : Memref sig .tc .vmem S2560x128 .f32} {harg6 : arg6.IsWhole}
    {D0 D1 D2 D3 D4 D5 : Type} {X0 : D0 → Vec F S2560x64 .f32} {X1 : D1 → Vec F S2560x64 .f32} {X2 : D2 → Vec F S2560x1 .f32}
    {X3 : D3 → Vec F S1x64 .f32} {X4 : D4 → Vec F S64x128 .f32} {X5 : D5 → Vec F S2560x128 .f32}
    {x0 : Vec F S2560x64 .f32} {x1 : Vec F S2560x64 .f32} {x2 : Vec F S2560x1 .f32} {x3 : Vec F S1x64 .f32} {x4 : Vec F S64x128 .f32}
    {y : Vec F S2560x128 .f32} {R R' : sProp 𝕄}
    (h0 : ∀ d, X0 d = x0) (h1 : ∀ d, X1 d = x1) (h2 : ∀ d, X2 d = x2) (h3 : ∀ d, X3 d = x3) (h4 : ∀ d, X4 d = x4)
    (hy : y = out2_5 x0 x1 x2 x3 x4) :
    iprop(R ∗ R' ∗ (∃ d, owns (c : Thread nD τ) arg1 fullShare (X0 d)) ∗ (∃ d, owns (c : Thread nD τ) arg2 fullShare (X1 d))
        ∗ (∃ d, owns (c : Thread nD τ) arg3 fullShare (X2 d)) ∗ (∃ d, owns (c : Thread nD τ) arg4 fullShare (X3 d))
        ∗ (∃ d, owns (c : Thread nD τ) arg5 fullShare (X4 d)) ∗ (∃ d, owns (c : Thread nD τ) arg6 fullShare (X5 d)))
      ⊢ wp frame (wpE (defs₀ (F := F)) Variants.none c none) E
          (cc2__combine_transform_kernel i arg1 harg1 arg2 harg2 arg3 harg3 arg4 harg4 arg5 harg5 arg6 harg6)
          (fun _ => iprop(R ∗ R' ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare y)) := by
  simp only [cc2__combine_transform_kernel_eq_skeleton, h0, h1, h2, h3, h4, hy]; unfold cc2__combine_transform_kernel_skel
  unfold owns
  iintro ⟨HR, HR', ⟨%_, %f0, %hf0, H0⟩, ⟨%_, %f1, %hf1, H1⟩, ⟨%_, %f2, %hf2, H2⟩, ⟨%_, %f3, %hf3, H3⟩, ⟨%_, %f4, %hf4, H4⟩, ⟨%_, %f5, -, H5⟩⟩
  subst hf0 hf1 hf2 hf3 hf4
  sl_exec
  sl_step
  iframe HR HR'
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ fun y => ⟨_, List.mem_singleton_self _, View.mem_set_unit_zero hz2 inb_S2560x128_S2560x128_0_0 y⟩

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2 (c : Dev nD) (t : Fin cfg2.N) : ∀ w : Fin cfg2.W, (cfg2.win w).isOut = false → ∀ d, (dat2 V c).before w t d = (dat2 V c).fetched w t d
  | ⟨0, _⟩, _, d | ⟨1, _⟩, _, d | ⟨2, _⟩, _, d | ⟨3, _⟩, _, d | ⟨4, _⟩, _, d =>
    (dat2 V c).before_in_eq_fetched _ rfl (fun _ => rfl) (fun _ _ _ => rfl) (fun _ => rfl) t d
  | ⟨5, _⟩, h, _ => Bool.noConfusion (h : true = false)

theorem body_obligation2 (c : Dev nD) : BodyObligation (dat2 (F := F) V c) (defs₀ (F := F)) Variants.none () Set.univ := fun t => by
  rw [bigSep_W2, bigSep_W2]
  exact sound_kernel2 (i := grid2.coords t) (harg1 := hstage2_0 _) (harg2 := hstage2_1 _) (harg3 := hstage2_2 _) (harg4 := hstage2_3 _)
    (harg5 := hstage2_4 _) (harg6 := hstage2_5 _)
    (fun d => (before2 V c t 0 rfl d).trans rfl) (fun d => (before2 V c t 1 rfl d).trans rfl) (fun d => (before2 V c t 2 rfl d).trans rfl)
    (fun d => (before2 V c t 3 rfl d).trans rfl) (fun d => (before2 V c t 4 rfl d).trans rfl) (after2_5 V c t)

end Cert.Kernel.Fr

end
-- ==== Proof.FrK.Reg3.lean ====
import proofs.«415774_j67989332296056_2_alg».proof.Proof.Gen.Kernel.Launch
import proofs.«415774_j67989332296056_2_alg».proof.Proof.Gen.Kernel.Skeleton
import proofs.«415774_j67989332296056_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev t0 : Fin cfg3.N := ⟨0, by decide⟩
abbrev tl : Fin cfg3.N := ⟨39, by decide⟩

theorem lt_N3 {n : ℕ} (h : n < 40) : n < cfg3.N := lt_of_lt_of_eq h N_3.symm

def sumAcc3 (c : Dev nD) : (t : Nat) → t < 40 → Vec F S1024x128 .f32
  | 0, _ => k3_pay6 (iblk3 V c 2 t0) (iblk3 V c 0 t0) (iblk3 V c 1 t0) (iblk3 V c 3 t0) (iblk3 V c 4 t0) k3_pay3
  | t + 1, h => k3_pay6 (iblk3 V c 2 ⟨t + 1, lt_N3 h⟩) (iblk3 V c 0 ⟨t + 1, lt_N3 h⟩) (iblk3 V c 1 ⟨t + 1, lt_N3 h⟩)
      (iblk3 V c 3 ⟨t + 1, lt_N3 h⟩) (iblk3 V c 4 ⟨t + 1, lt_N3 h⟩) (sumAcc3 c t (by omega))

def cntAcc3 (c : Dev nD) : (t : Nat) → t < 40 → Vec F S1024x1 .f32
  | 0, _ => k3_pay1 (k3_pay7 (iblk3 V c 4 t0) k3_pay4)
  | t + 1, h => k3_pay1 (k3_pay7 (iblk3 V c 4 ⟨t + 1, lt_N3 h⟩) (cntAcc3 c t (by omega)))

theorem sumAcc3_zero (c : Dev nD) : sumAcc3 V c 0 (by decide) = k3_pay6 (iblk3 V c 2 t0) (iblk3 V c 0 t0) (iblk3 V c 1 t0) (iblk3 V c 3 t0) (iblk3 V c 4 t0) k3_pay3 := by
  rw [sumAcc3]

theorem sumAcc3_succ (c : Dev nD) (t : Nat) (h : t + 1 < 40) :
    sumAcc3 V c (t + 1) h = k3_pay6 (iblk3 V c 2 ⟨t + 1, lt_N3 h⟩) (iblk3 V c 0 ⟨t + 1, lt_N3 h⟩) (iblk3 V c 1 ⟨t + 1, lt_N3 h⟩)
      (iblk3 V c 3 ⟨t + 1, lt_N3 h⟩) (iblk3 V c 4 ⟨t + 1, lt_N3 h⟩) (sumAcc3 V c t (by omega)) := by
  rw [sumAcc3]

theorem cntAcc3_zero (c : Dev nD) : cntAcc3 V c 0 (by decide) = k3_pay1 (k3_pay7 (iblk3 V c 4 t0) k3_pay4) := by
  rw [cntAcc3]

theorem cntAcc3_succ (c : Dev nD) (t : Nat) (h : t + 1 < 40) :
    cntAcc3 V c (t + 1) h = k3_pay1 (k3_pay7 (iblk3 V c 4 ⟨t + 1, lt_N3 h⟩) (cntAcc3 V c t (by omega))) := by
  rw [cntAcc3]

def out3_7 (c : Dev nD) : Vec F S1024x1 .f32 :=
  k3_pay2 (sumAcc3 V c 39 (by decide)) (cntAcc3 V c 39 (by decide)) (iblk3 V c 5 tl) (iblk3 V c 6 tl)

abbrev scM3_0 : Memref sig .tc .vmem S1024x128 .f32 := Memref.whole cc3_scratch0
abbrev scM3_1 : Memref sig .tc .vmem S1024x1 .f32 := Memref.whole cc3_scratch1

def Phi3 (c : Dev nD) : (n : ℕ) → n ≤ cfg3.N → sProp 𝕄
  | 0, _ => iprop((∃ r, prngReg c r)
      ∗ Pipeline.scopedRestBut (Ix := Unit) (Name := ℕ) (U := UR sig nD τ) (Lvl := ℕ) (Val := Elt F) spec3 c [cc3_scratch0, cc3_scratch1]
      ∗ (∃ d, owns (c : Thread nD τ) scM3_0 fullShare d) ∗ (∃ d, owns (c : Thread nD τ) scM3_1 fullShare d))
  | n + 1, hn => iprop((∃ r, prngReg c r)
      ∗ Pipeline.scopedRestBut (Ix := Unit) (Name := ℕ) (U := UR sig nD τ) (Lvl := ℕ) (Val := Elt F) spec3 c [cc3_scratch0, cc3_scratch1]
      ∗ owns (c : Thread nD τ) scM3_0 fullShare (sumAcc3 V c n (lt_of_lt_of_eq hn N_3))
      ∗ owns (c : Thread nD τ) scM3_1 fullShare (cntAcc3 V c n (lt_of_lt_of_eq hn N_3)))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = out3_7 V c := by dsimp only [dat3]

theorem hin3 (c : Dev nD) : iprop((∃ r, prngReg c r) ∗ Pipeline.scopedRest (Ix := Unit) (Name := ℕ) (U := UR sig nD τ) (Lvl := ℕ) (Val := Elt F) spec3 c) ⊢ ((dat3 V c).Φ 0 : sProp 𝕄) := by
  rw [show (dat3 V c).Φ 0 = Phi3 V c 0 (Nat.zero_le _) from rfl, Phi3, scopedRest3_split]
  simp only [scM3_0, scM3_1, owns_whole]
  iintro ⟨Hg, ⟨HS0, HS1⟩, Hr⟩
  iframe

theorem hout3 (c : Dev nD) : ((dat3 V c).Φ (Fin.last cfg3.N) : sProp 𝕄) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Phi3 V c (39 + 1) (by decide) from rfl, Phi3, scopedRest3_split]
  simp only [scM3_0, scM3_1, owns_whole]
  iintro ⟨Hg, Hr, HS0, HS1⟩
  iframe Hg Hr
  isplitl [HS0] <;> (iexists _; iassumption)

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) := by
  refine ⟨?_, ?_, ?_, ?_, ?_, ?_, ?_⟩ <;>
    exact fun d => ((dat3 V c).before_in_eq_fetched _ rfl (fun _ => rfl) (fun _ _ _ => rfl) (fun _ => rfl) t d).trans rfl

theorem leaves3 (c : Dev nD) (t : Fin cfg3.N) :
    (dat3 V c).leavesExact 0 t = owns (c : Thread nD τ) (st3_0 t) fullShare (iblk3 V c 0 t) ∧ (dat3 V c).leavesExact 1 t = owns (c : Thread nD τ) (st3_1 t) fullShare (iblk3 V c 1 t) ∧ (dat3 V c).leavesExact 2 t = owns (c : Thread nD τ) (st3_2 t) fullShare (iblk3 V c 2 t) ∧ (dat3 V c).leavesExact 3 t = owns (c : Thread nD τ) (st3_3 t) fullShare (iblk3 V c 3 t) ∧ (dat3 V c).leavesExact 4 t = owns (c : Thread nD τ) (st3_4 t) fullShare (iblk3 V c 4 t) ∧ (dat3 V c).leavesExact 5 t = owns (c : Thread nD τ) (st3_5 t) fullShare (iblk3 V c 5 t) ∧ (dat3 V c).leavesExact 6 t = owns (c : Thread nD τ) (st3_6 t) fullShare (iblk3 V c 6 t) :=
  ⟨rfl, rfl, rfl, rfl, rfl, rfl, rfl⟩

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1

theorem hcond3_1 : ∀ t : Fin cfg3.N, cond3_1 (grid3.coords t) ↔ t.val = 39 :=
  (by decide +kernel : ∀ t : Fin grid3.N, cond3_1 (grid3.coords t) ↔ t.val = 39)

theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

theorem hz2 : (![0, 0] : Fin 2 → Nat) = fun _ => 0 := by funext a; fin_cases a <;> rfl

theorem read_writes_whole {S : Shape} {e : EltTy} (v : View sig .tc .vmem S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The body on whole memrefs: the first point resets the accumulators before advancing them, the last also stores the output computed from them. -/
theorem run3 (c : Dev nD) (E : Set ℕ) (i : grid3.Coords) (arg1 : Memref sig .tc .vmem S2560x128 .f32) (harg1 : arg1.IsWhole) (arg2 : Memref sig .tc .vmem S2560x128 .f32) (harg2 : arg2.IsWhole) (arg3 : Memref sig .tc .vmem S2560x1 .f32) (harg3 : arg3.IsWhole) (arg4 : Memref sig .tc .vmem S1x128 .f32) (harg4 : arg4.IsWhole) (arg5 : Memref sig .tc .vmem S1x2560 .i32) (harg5 : arg5.IsWhole) (arg6 : Memref sig .tc .vmem S128x1 .f32) (harg6 : arg6.IsWhole) (arg7 : Memref sig .tc .vmem S1x1 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x1 .f32) (harg10 : arg10.IsWhole)
    (x0 x1 : Vec F S2560x128 .f32) (x2 : Vec F S2560x1 .f32) (x3 : Vec F S1x128 .f32) (x4 : Vec F S1x2560 .i32) (x5 : Vec F S128x1 .f32) (x6 : Vec F S1x1 .f32) (x7 o : Vec F S1024x1 .f32)
    (s0 a0 : Vec F S1024x128 .f32) (s1 a1 : Vec F S1024x1 .f32)
    (h : cond3_0 i ∧ ¬cond3_1 i ∧ a0 = k3_pay3 ∧ a1 = k3_pay4 ∧ o = x7
      ∨ ¬cond3_0 i ∧ a0 = s0 ∧ a1 = s1 ∧ (cond3_1 i ∧ o = k3_pay2 (k3_pay6 x2 x0 x1 x3 x4 s0) (k3_pay1 (k3_pay7 x4 s1)) x5 x6 ∨ ¬cond3_1 i ∧ o = x7))
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare o
            ∗ owns (c : Thread nD τ) arg9 fullShare (k3_pay6 x2 x0 x1 x3 x4 a0)
            ∗ owns (c : Thread nD τ) arg10 fullShare (k3_pay1 (k3_pay7 x4 a1))) -∗ K ⟨⟩))
      ⊢ wp frame (wpE (defs₀ (F := F)) Variants.none c none) E (cc3__final_combine_pool_kernel i arg1 harg1 arg2 harg2 arg3 harg3 arg4 harg4 arg5 harg5 arg6 harg6 arg7 harg7 arg8 harg8 arg9 harg9 arg10 harg10) K := by
  simp only [cc3__final_combine_pool_kernel_eq_skeleton]; unfold cc3__final_combine_pool_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  rcases h with ⟨hc0, hc1, rfl, rfl, rfl⟩ | ⟨hc0, rfl, rfl, ⟨hc1, rfl⟩ | ⟨hc1, rfl⟩⟩
  all_goals
    sl_exec (disch := first | exact hc0 | exact hc1)
    sl_step
    iapply Hk
    isplitl [H0]; swap; isplitl [H1]; swap; isplitl [H2]; swap; isplitl [H3]; swap; isplitl [H4]; swap
    isplitl [H5]; swap; isplitl [H6]; swap; isplitl [H7]; swap; isplitl [H8]; swap
    all_goals (iexists _; isplitr; swap; iassumption; ipureintro)
    all_goals first
      | with_reducible rfl
      | (refine (read_writes_whole _ _ hz2 _ _ _).trans ?_
         sl_unfold_run_names
         simp only [View.readAt_eq_ld, View.ld_unit_zero (S := S2560x1) hz2, View.ld_unit_zero (S := S2560x128) hz2, View.ld_unit_zero (S := S1x128) hz2, View.ld_unit_zero (S := S1x2560) hz2, View.ld_unit_zero (S := S1024x128) hz2, View.ld_unit_zero (S := S1024x1) hz2, View.ld_unit_zero (S := S128x1) hz2, View.ld_unit_zero (S := S1x1) hz2, View.readCov_unit_zero (S := S1024x128) _ hz2, View.readCov_unit_zero (S := S1024x1) _ hz2])

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

theorem sound_body3 (c : Dev nD) : ∀ t : Fin cfg3.N,
    bodyPre3 V c t ⊢ wp frame (wpE (defs₀ (F := F)) Variants.none c none) Set.univ (bodyAt3 t) (fun _ => bodyPost3 V c t)
  | ⟨0, h⟩ => by
    unfold bodyPre3 bodyPost3 bodyAt3
    have hc1 : ¬cond3_1 (grid3.coords ⟨0, h⟩) := fun hc => absurd ((hcond3_1 _).mp hc) (by decide : (0 : ℕ) ≠ 39)
    simp only [before3 V c ⟨0, h⟩, leaves3 V c ⟨0, h⟩]
    rw [Dat.leavesExact_idle (dat3 V c) 7 _ (idleAt3_7 _ hc1) (noFlush3_7 _ hc1),
      show (dat3 V c).owesAt () (Fin.succ ⟨0, h⟩) = (dat3 V c).owesAt () (Fin.castSucc ⟨0, h⟩) from rfl,
      show (dat3 V c).Φ (Fin.castSucc ⟨0, h⟩) = Phi3 V c 0 (Nat.zero_le _) from rfl,
      show (dat3 V c).Φ (Fin.succ ⟨0, h⟩) = Phi3 V c (0 + 1) h from rfl, Phi3, Phi3, sumAcc3_zero, cntAcc3_zero]
    iintro ⟨⟨Hg, Hr, ⟨%s0, HS0⟩, ⟨%s1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run3 c Set.univ (grid3.coords _) _ _ _ _ _ _ _ _ _ _ _ _ _ _ _ _ _ _ _ _ _ _ _ _ _ _ _ _ _ _ _ _ _ (.inl ⟨(hcond3_0 _).mpr rfl, hc1, rfl, rfl, rfl⟩) _)
    iframe H0 H1 H2 H3 H4 H5 H6 H7 HS0 HS1
    iintro ⟨H0, H1, H2, H3, H4, H5, H6, H7, HS0, HS1⟩
    iframe
    iexists _; iexact H7
  | ⟨n + 1, h⟩ => by
    unfold bodyPre3 bodyPost3 bodyAt3
    have hc0 : ¬cond3_0 (grid3.coords ⟨n + 1, h⟩) := fun hc => absurd ((hcond3_0 _).mp hc) (Nat.succ_ne_zero n)
    simp only [before3 V c ⟨n + 1, h⟩, leaves3 V c ⟨n + 1, h⟩]
    rw [show (dat3 V c).owesAt () (Fin.succ ⟨n + 1, h⟩) = (dat3 V c).owesAt () (Fin.castSucc ⟨n + 1, h⟩) from rfl,
      show (dat3 V c).Φ (Fin.castSucc ⟨n + 1, h⟩) = Phi3 V c (n + 1) (Nat.le_of_lt h) from rfl,
      show (dat3 V c).Φ (Fin.succ ⟨n + 1, h⟩) = Phi3 V c (n + 1 + 1) h from rfl, Phi3, Phi3]
    by_cases h1 : n + 1 = 39
    · have hc1 : cond3_1 (grid3.coords ⟨n + 1, h⟩) := (hcond3_1 _).mpr h1
      have ho : out3_7 V c = k3_pay2 (sumAcc3 V c (n + 1) (lt_of_lt_of_eq h N_3)) (cntAcc3 V c (n + 1) (lt_of_lt_of_eq h N_3)) (iblk3 V c 5 ⟨n + 1, h⟩) (iblk3 V c 6 ⟨n + 1, h⟩) := by
        obtain rfl : n = 38 := by omega
        rfl
      rw [show (dat3 V c).leavesExact 7 ⟨n + 1, h⟩ = owns (c : Thread nD τ) (st3_7 ⟨n + 1, h⟩) fullShare ((dat3 V c).after 7 ⟨n + 1, h⟩) from by
        unfold Dat.leavesExact; rw [liveAt3_7 _ hc1], after3_7, ho, sumAcc3_succ V c n, cntAcc3_succ V c n]
      iintro ⟨⟨Hg, Hr, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3 c Set.univ (grid3.coords _) _ _ _ _ _ _ _ _ _ _ _ _ _ _ _ _ _ _ _ _ _ _ _ _ _ _ _ _ _ _ _ _ _ (.inr ⟨hc0, rfl, rfl, .inl ⟨hc1, rfl⟩⟩) _)
      iframe H0 H1 H2 H3 H4 H5 H6 H7 HS0 HS1
      iintro ⟨H0, H1, H2, H3, H4, H5, H6, H7, HS0, HS1⟩
      iframe
    · have hc1 : ¬cond3_1 (grid3.coords ⟨n + 1, h⟩) := fun hc => h1 ((hcond3_1 _).mp hc)
      rw [Dat.leavesExact_idle (dat3 V c) 7 _ (idleAt3_7 _ hc1) (noFlush3_7 _ hc1), sumAcc3_succ V c n, cntAcc3_succ V c n]
      iintro ⟨⟨Hg, Hr, HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run3 c Set.univ (grid3.coords _) _ _ _ _ _ _ _ _ _ _ _ _ _ _ _ _ _ _ _ _ _ _ _ _ _ _ _ _ _ _ _ _ _ (.inr ⟨hc0, rfl, rfl, .inr ⟨hc1, rfl⟩⟩) _)
      iframe H0 H1 H2 H3 H4 H5 H6 H7 HS0 HS1
      iintro ⟨H0, H1, H2, H3, H4, H5, H6, H7, HS0, HS1⟩
      iframe
      iexists _; iexact H7

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.FrK.Chain.lean ====
import proofs.«415774_j67989332296056_2_alg».proof.Proof.FrK.Reg0
import proofs.«415774_j67989332296056_2_alg».proof.Proof.FrK.Reg1
import proofs.«415774_j67989332296056_2_alg».proof.Proof.FrK.Reg2
import proofs.«415774_j67989332296056_2_alg».proof.Proof.FrK.Reg3
import proofs.«415774_j67989332296056_2_alg».proof.Proof.Gen.Kernel.Regions

set_option maxRecDepth 16384

noncomputable section

namespace Cert.Kernel.Fr

open Cert.Kernel Cert.Kernel.Gen
open Idealize.ShloMosaic Idealize.ShloMosaic.TcCoe Idealize.SL.Sem

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev ent0 : (c : Dev nD) → (b : Ref sig .tc) → Buf (Elt F) ((c : Thread nD τ).loc b) := atTc (V4 m)

def left0 (c : Dev nD) : Buf (Elt F) ((c : Thread nD τ).loc main_v14) := (dat0 (ent0 m) c).arrAt 3 cfg0.N

def leaves0 : Outs (F := F) := fun _ r c =>
  if h : r = main_v14 then h ▸ left0 m c else m ((c : Thread nD τ).loc r)

abbrev ent1 : (c : Dev nD) → (b : Ref sig .tc) → Buf (Elt F) ((c : Thread nD τ).loc b) := atTc (V8 m (leaves0 m))

def left1 (c : Dev nD) : Buf (Elt F) ((c : Thread nD τ).loc main_v27) := (dat1 (ent1 m) c).arrAt 5 cfg1.N
def leaves1 : Outs (F := F) := fun _ r c =>
  if h : r = main_v14 then h ▸ left0 m c else if h : r = main_v27 then h ▸ left1 m c else m ((c : Thread nD τ).loc r)

abbrev ent2 : (c : Dev nD) → (b : Ref sig .tc) → Buf (Elt F) ((c : Thread nD τ).loc b) := atTc (V12 m (leaves1 m))

def left2 (c : Dev nD) : Buf (Elt F) ((c : Thread nD τ).loc main_v40) := (dat2 (ent2 m) c).arrAt 5 cfg2.N
def leaves2 : Outs (F := F) := fun _ r c =>
  if h : r = main_v14 then h ▸ left0 m c else if h : r = main_v27 then h ▸ left1 m c
  else if h : r = main_v40 then h ▸ left2 m c else m ((c : Thread nD τ).loc r)

abbrev ent3 : (c : Dev nD) → (b : Ref sig .tc) → Buf (Elt F) ((c : Thread nD τ).loc b) := atTc (V18 m (leaves2 m))

def left3 (c : Dev nD) : Buf (Elt F) ((c : Thread nD τ).loc main_v56) := (dat3 (ent3 m) c).arrAt 7 cfg3.N

def leaves : Outs (F := F) := fun _ r c =>
  if h : r = main_v14 then h ▸ left0 m c else if h : r = main_v27 then h ▸ left1 m c
  else if h : r = main_v40 then h ▸ left2 m c else if h : r = main_v56 then h ▸ left3 m c else m ((c : Thread nD τ).loc r)

theorem leaves_v14 (J : ℕ) (c : Dev nD) : leaves m J main_v14 c = left0 m c := by
  unfold leaves; rw [dif_pos rfl]
theorem leaves_v27 (J : ℕ) (c : Dev nD) : leaves m J main_v27 c = left1 m c := by
  unfold leaves; rw [dif_neg (by decide), dif_pos rfl]
theorem leaves_v40 (J : ℕ) (c : Dev nD) : leaves m J main_v40 c = left2 m c := by
  unfold leaves; rw [dif_neg (by decide), dif_neg (by decide), dif_pos rfl]
theorem leaves_v56 (J : ℕ) (c : Dev nD) : leaves m J main_v56 c = left3 m c := by
  unfold leaves; rw [dif_neg (by decide), dif_neg (by decide), dif_neg (by decide), dif_pos rfl]
theorem leaves0_v14 (J : ℕ) (c : Dev nD) : leaves0 m J main_v14 c = left0 m c := by
  unfold leaves0; rw [dif_pos rfl]
theorem leaves1_v14 (J : ℕ) (c : Dev nD) : leaves1 m J main_v14 c = left0 m c := by
  unfold leaves1; rw [dif_pos rfl]
theorem leaves1_v27 (J : ℕ) (c : Dev nD) : leaves1 m J main_v27 c = left1 m c := by
  unfold leaves1; rw [dif_neg (by decide), dif_pos rfl]
theorem leaves2_v14 (J : ℕ) (c : Dev nD) : leaves2 m J main_v14 c = left0 m c := by
  unfold leaves2; rw [dif_pos rfl]
theorem leaves2_v27 (J : ℕ) (c : Dev nD) : leaves2 m J main_v27 c = left1 m c := by
  unfold leaves2; rw [dif_neg (by decide), dif_pos rfl]
theorem leaves2_v40 (J : ℕ) (c : Dev nD) : leaves2 m J main_v40 c = left2 m c := by
  unfold leaves2; rw [dif_neg (by decide), dif_neg (by decide), dif_pos rfl]

theorem V8_leaves (c : Dev nD) : V8 m (leaves m) c = V8 m (leaves0 m) c := by
  simp only [V8, V7, V6, V5, leaves_v14, leaves0_v14]

theorem V12_leaves (c : Dev nD) : V12 m (leaves m) c = V12 m (leaves1 m) c := by
  simp only [V12, V11, V10, V9, V8, V7, V6, V5, leaves_v14, leaves_v27, leaves1_v14, leaves1_v27]

theorem V18_leaves (c : Dev nD) : V18 m (leaves m) c = V18 m (leaves2 m) c := by
  simp only [V18, V17, V16, V15, V14, V13, V12, V11, V10, V9, V8, V7, V6, V5, leaves_v14, leaves_v27, leaves_v40,
    leaves2_v14, leaves2_v27, leaves2_v40]

end Cert.Kernel.Fr

end
-- ==== Proof.FrK.Run.lean ====
import proofs.«415774_j67989332296056_2_alg».proof.Proof.FrK.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hA0 (c : Dev nD) (w) : (dat0 (ent0 m) c).A w = atTc (V4 m) c (Pipeline.arrRef spec0 w) := A_eq0 _ c w
theorem hA1 (c : Dev nD) (w) : (dat1 (ent1 m) c).A w = atTc (V8 m (leaves m)) c (Pipeline.arrRef spec1 w) :=
  (A_eq1 _ c w).trans (congrFun (V8_leaves m c) _).symm
theorem hA2 (c : Dev nD) (w) : (dat2 (ent2 m) c).A w = atTc (V12 m (leaves m)) c (Pipeline.arrRef spec2 w) :=
  (A_eq2 _ c w).trans (congrFun (V12_leaves m c) _).symm
theorem hA3 (c : Dev nD) (w) : (dat3 (ent3 m) c).A w = atTc (V18 m (leaves m)) c (Pipeline.arrRef spec3 w) :=
  (A_eq3 _ c w).trans (congrFun (V18_leaves m c) _).symm

theorem V5_out (c : Dev nD) : V5 m (leaves m) c main_v14 = left0 m c :=
  (Function.update_self _ _ _).trans (leaves_v14 m 5 c)

theorem hF0 (c : Dev nD) (w : Fin 4) : (dat0 (ent0 m) c).arrAt w cfg0.N = atTc (V5 m (leaves m)) c (Pipeline.arrRef spec0 w) := by
  by_cases h : w = 3
  · subst h; exact (V5_out m c).symm
  · obtain ⟨hk, hr⟩ := (by decide : ∀ w : Fin 4, w ≠ 3 → (cfg0.win w).isOut = false ∧ Pipeline.arrRef spec0 w ∉ ([main_v14] : List (Ref sig .tc))) w h
    exact (((dat0 (ent0 m) c).arrAt_in w hk _).trans (hA0 m c w)).trans (V5_of m (leaves m) c _ hr).symm

theorem hrest0 (c : Dev nD) (b) (hb : b ∉ Finset.univ.image (Pipeline.arrRef spec0)) : atTc (V5 m (leaves m)) c b = atTc (V4 m) c b :=
  V5_of m (leaves m) c b fun h => hb (Finset.mem_image.mpr ⟨3, Finset.mem_univ _, (List.mem_singleton.mp h).symm⟩)

theorem V9_out (c : Dev nD) : V9 m (leaves m) c main_v27 = left1 m c :=
  (Function.update_self _ _ _).trans (leaves_v27 m 9 c)

theorem hF1 (c : Dev nD) (w : Fin 6) : (dat1 (ent1 m) c).arrAt w cfg1.N = atTc (V9 m (leaves m)) c (Pipeline.arrRef spec1 w) := by
  by_cases h : w = 5
  · subst h; exact (V9_out m c).symm
  · obtain ⟨hk, hr⟩ := (by decide : ∀ w : Fin 6, w ≠ 5 → (cfg1.win w).isOut = false ∧ Pipeline.arrRef spec1 w ∉ ([main_v27] : List (Ref sig .tc))) w h
    exact (((dat1 (ent1 m) c).arrAt_in w hk _).trans (hA1 m c w)).trans (V9_of m (leaves m) c _ hr).symm

theorem hrest1 (c : Dev nD) (b) (hb : b ∉ Finset.univ.image (Pipeline.arrRef spec1)) : atTc (V9 m (leaves m)) c b = atTc (V8 m (leaves m)) c b :=
  V9_of m (leaves m) c b fun h => hb (Finset.mem_image.mpr ⟨5, Finset.mem_univ _, (List.mem_singleton.mp h).symm⟩)

theorem V13_out (c : Dev nD) : V13 m (leaves m) c main_v40 = left2 m c :=
  (Function.update_self _ _ _).trans (leaves_v40 m 13 c)

theorem hF2 (c : Dev nD) (w : Fin 6) : (dat2 (ent2 m) c).arrAt w cfg2.N = atTc (V13 m (leaves m)) c (Pipeline.arrRef spec2 w) := by
  by_cases h : w = 5
  · subst h; exact (V13_out m c).symm
  · obtain ⟨hk, hr⟩ := (by decide : ∀ w : Fin 6, w ≠ 5 → (cfg2.win w).isOut = false ∧ Pipeline.arrRef spec2 w ∉ ([main_v40] : List (Ref sig .tc))) w h
    exact (((dat2 (ent2 m) c).arrAt_in w hk _).trans (hA2 m c w)).trans (V13_of m (leaves m) c _ hr).symm

theorem hrest2 (c : Dev nD) (b) (hb : b ∉ Finset.univ.image (Pipeline.arrRef spec2)) : atTc (V13 m (leaves m)) c b = atTc (V12 m (leaves m)) c b :=
  V13_of m (leaves m) c b fun h => hb (Finset.mem_image.mpr ⟨5, Finset.mem_univ _, (List.mem_singleton.mp h).symm⟩)

theorem V19_out (c : Dev nD) : V19 m (leaves m) c main_v56 = left3 m c :=
  (Function.update_self _ _ _).trans (leaves_v56 m 19 c)

theorem hF3 (c : Dev nD) (w : Fin 8) : (dat3 (ent3 m) c).arrAt w cfg3.N = atTc (V19 m (leaves m)) c (Pipeline.arrRef spec3 w) := by
  by_cases h : w = 7
  · subst h; exact (V19_out m c).symm
  · obtain ⟨hk, hr⟩ := (by decide : ∀ w : Fin 8, w ≠ 7 → (cfg3.win w).isOut = false ∧ Pipeline.arrRef spec3 w ∉ ([main_v56] : List (Ref sig .tc))) w h
    exact (((dat3 (ent3 m) c).arrAt_in w hk _).trans (hA3 m c w)).trans (V19_of m (leaves m) c _ hr).symm

theorem hrest3 (c : Dev nD) (b) (hb : b ∉ Finset.univ.image (Pipeline.arrRef spec3)) : atTc (V19 m (leaves m)) c b = atTc (V18 m (leaves m)) c b :=
  V19_of m (leaves m) c b fun h => hb (Finset.mem_image.mpr ⟨7, Finset.mem_univ _, (List.mem_singleton.mp h).symm⟩)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

def pdats : (p : Fin 4) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c

theorem owesIn {cfg : Cfg sig Λ₀} {c : Dev nD} (dat : Dat τ (Elt F) Unit ℕ (UR sig nD τ) ℕ cfg c) (t : Fin (cfg.N + 1))
    (h0 : dat.owed t = 0) (hr : dat.recorded t = Set.univ) : iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

theorem owesOut {cfg : Cfg sig Λ₀} {c : Dev nD} (dat : Dat τ (Elt F) Unit ℕ (UR sig nD τ) ℕ cfg c) (t : Fin (cfg.N + 1))
    (h0 : dat.owed t = 0) : (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

-- entering a region: its arrays are split out of the buffers held; everything else passes by
theorem enter {c : Dev nD} {H A Z OA : sProp 𝕄} (hsplit : H ⊢ iprop(A ∗ Z)) (hO : iprop(∃ W, owes (c : Thread nD τ) (0 : CellTallies nD τ sig Unit) W) ⊢ OA) :
    iprop(iprop(H ∗ R c) ∗ emp ∗ levAts L lv) ⊢ |={Set.univ}=> iprop(A ∗ emp ∗ OA ∗ (∃ r, prngReg c r) ∗ Z) := by
  iintro ⟨⟨Hub, Hp, HO⟩, -, -⟩
  ihave H := hsplit $$ Hub
  icases H with ⟨Ha, Hrest⟩
  imodintro
  isplitl [Ha]; · iexact Ha
  isplitr; · iempintro
  isplitl [HO]; · iapply hO; iexact HO
  isplitl [Hp]; · iexact Hp
  iexact Hrest

-- leaving it: the arrays are put back beside the rest
theorem leave {c : Dev nD} {H A Z OA : sProp 𝕄} (hjoin : iprop(A ∗ Z) ⊢ H) (hO : OA ⊢ iprop(∃ W, owes (c : Thread nD τ) (0 : CellTallies nD τ sig Unit) W)) :
    iprop(A ∗ OA ∗ (∃ r, prngReg c r) ∗ Z) ⊢ |={Set.univ}=> iprop(H ∗ R c) := by
  iintro ⟨Ha, HO, HY, Hrest⟩
  imodintro
  isplitl [Ha Hrest]
  · iapply hjoin; isplitl [Ha] <;> iassumption
  isplitl [HY]; · iexact HY
  iapply hO; iexact HO

theorem dropMid {X S : sProp 𝕄} : iprop(X ∗ emp ∗ S) ⊢ iprop(X ∗ S) := by
  iintro ⟨Hp, -, Hr⟩; isplitl [Hp]; · iexact Hp
  iexact Hr

theorem addMid {X S : sProp 𝕄} : iprop(X ∗ S) ⊢ iprop(X ∗ emp ∗ S) := by
  iintro ⟨Hp, Hr⟩; isplitl [Hp]; · iexact Hp
  isplitr; · iempintro
  iexact Hr

theorem prefEq (p : Fin 4) (c : Dev nD) (q) (V) :
    (Pipeline.prefHeld (Ix := Unit) (Name := ℕ) (U := UR sig nD τ) (Lvl := ℕ) (Val := Elt F) (pcfgs (F := F) p).pre c q V : sProp 𝕄) = BI.emp := by
  unfold Pipeline.prefHeld
  rw [show (Finset.univ : Finset (Fin 0)) = ∅ from rfl, BI.bigSep_empty]

-- one kernel region among the host stretches: entered with every buffer at `Vin`, left at `Vout`, which differs from `Vin` at the region's arrays only
set_option backward.isDefEq.respectTransparency.types false in
def mkReg (p : Fin 4) (ln : Pipeline.LaunchFacts (nD := nD) (τ := τ) cfgs p) (Vin Vout : (c : Dev nD) → Valuation τ sig (Elt F))
    (hb : ∀ c, BodyObligation (pdats m p c) (defs₀ (F := F)) 𝒱₀ () Set.univ)
    (h0 : ∀ c t, (pdats m p c).owed t = 0) (hr : ∀ c, (pdats m p c).recorded 0 = Set.univ) (hq : ∀ c w, (pdats m p c).q w = fullShare)
    (hA : ∀ c w, (pdats m p c).A w = atTc Vin c (Pipeline.arrRef (cfgs p).spec w))
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b)
    (hin : ∀ c, iprop((∃ r, prngReg c r) ∗ Pipeline.scopedRest (Ix := Unit) (Name := ℕ) (U := UR sig nD τ) (Lvl := ℕ) (Val := Elt F) (cfgs p).spec c) ⊢ ((pdats m p c).Φ 0 : sProp 𝕄))
    (hout : ∀ c, ((pdats m p c).Φ (Fin.last _) : sProp 𝕄) ⊢ iprop((∃ r, prngReg c r) ∗ Pipeline.scopedRest (Ix := Unit) (Name := ℕ) (U := UR sig nD τ) (Lvl := ℕ) (Val := Elt F) (cfgs p).spec c)) :
    Pipeline.RegionSeg (pcfgs (F := F)) Gen.adm (pdats m) () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    have hsplit := Pipeline.arrays_of_unscopedBufs (p := p) (pcfgs (F := F)) Gen.adm (pdats m) ln.win ln.arr_whole c
      ((pdats m p c).share_full (hq c)) (atTc Vin c) (hA c)
    rw [Pipeline.unscopedBufs_held] at hsplit
    rw [Pipeline.ownSems0_none, prefEq p]
    exact enter hsplit (owesIn _ _ (h0 c 0) (hr c))
  hin c := by rw [prefEq p]; exact dropMid.trans (hin c)
  hout c := by rw [Pipeline.ownSems0_none]; exact (hout c).trans addMid
  hexit c := by
    have hjoin := Pipeline.unscopedBufs_of_arrays (p := p) (pcfgs (F := F)) Gen.adm (Ix := Unit) (Name := ℕ) (U := UR sig nD τ) (Lvl := ℕ)
      ln.win ln.arr_whole c (pdats m) ((pdats m p c).share_full (hq c))
      (atTc Vin c) (atTc Vout c) ((pdats m p c).arrAt · (cfgs p).N) (hF c) (hrest c)
    rw [Pipeline.unscopedBufs_held] at hjoin
    exact leave hjoin (owesOut _ _ (h0 c _))

theorem inΦA {gr W : ℕ} {spec : Fin W → Pipeline.WinSpec sig gr} (c : Dev nD) : iprop((∃ r, prngReg c r) ∗ Pipeline.scopedRest (Ix := Unit) (Name := ℕ) (U := UR sig nD τ) (Lvl := ℕ) (Val := Elt F) spec c) ⊢ (Pipeline.ΦA spec c : sProp 𝕄) :=
  by unfold Pipeline.ΦA; exact Laws.sep_comm.1
theorem outΦA {gr W : ℕ} {spec : Fin W → Pipeline.WinSpec sig gr} (c : Dev nD) : (Pipeline.ΦA spec c : sProp 𝕄) ⊢ iprop((∃ r, prngReg c r) ∗ Pipeline.scopedRest (Ix := Unit) (Name := ℕ) (U := UR sig nD τ) (Lvl := ℕ) (Val := Elt F) spec c) :=
  by unfold Pipeline.ΦA; exact Laws.sep_comm.1

def reg0 := mkReg m 0 launch0 (V4 m) (V5 m (leaves m)) (fun c => body_obligation0 (ent0 m) c) (fun _ _ => rfl) (fun _ => rfl) (fun _ _ => rfl)
  (hA0 m) (hF0 m) (hrest0 m) inΦA outΦA
def reg1 := mkReg m 1 launch1 (V8 m (leaves m)) (V9 m (leaves m)) (fun c => body_obligation1 (ent1 m) c) (fun _ _ => rfl) (fun _ => rfl) (fun _ _ => rfl)
  (hA1 m) (hF1 m) (hrest1 m) inΦA outΦA
def reg2 := mkReg m 2 launch2 (V12 m (leaves m)) (V13 m (leaves m)) (fun c => body_obligation2 (ent2 m) c) (fun _ _ => rfl) (fun _ => rfl) (fun _ _ => rfl)
  (hA2 m) (hF2 m) (hrest2 m) inΦA outΦA
def reg3 := mkReg m 3 launch3 (V18 m (leaves m)) (V19 m (leaves m)) (fun c => body_obligation3 (ent3 m) c) (fun _ _ => rfl) (fun _ => rfl) (fun _ _ => rfl)
  (hA3 m) (hF3 m) (hrest3 m) (hin3 (ent3 m)) (hout3 (ent3 m))

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE4 (c : Dev nD) : E (F := F) 4 c ⊢ (iprop(∃ W, owes (c : Thread nD τ) (0 : CellTallies nD τ sig Unit) W) : sProp 𝕄) := by
  iintro ⟨-, HO⟩; iexact HO

-- a final memory on core `c`: the result buffer at `o`, every argument's buffer as launched
abbrev Ends (c : Dev nD) (o : Buf (Elt F) ((c.tc : Thread nD τ).loc main_v56)) (mem : (ℓ : Loc nD τ sig) → Buf (Elt F) ℓ) : Prop :=
  mem ((c.tc : Thread nD τ).loc main_v56) = o
  ∧ mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)

set_option backward.isDefEq.respectTransparency.types false in
theorem run_out (ρ : Dev nD → PrngReg) : θ_run defs (onTc (τ := τ) (main (F := F))) ⟨m, fun _ => 0, ρ⟩
    (fun r => ∀ c : Dev nD, Ends m c (left3 m c) r.2.mem) := by
  refine Pipeline.θ_run_regions_kit_dev (pcfgs (F := F)) Gen.adm (pdats m) () cellOf_inj emb₁ defs₀ 𝒱₀ L lv m ρ main
    (Gen.segs m (leaves m) 𝒱₀ L lv E () (pdats m) (reg0 m) (reg1 m) (reg2 m) (reg3 m))
    (fun c Q => by
      rewrite [main_chain c, Pipeline.Seg.run_eq_chain,
        show (Gen.segs m (leaves m) 𝒱₀ L lv E () (pdats m) (reg0 m) (reg1 m) (reg2 m) (reg3 m) c).map Pipeline.Seg.prog = [
          StableHlo.seq hostOps0, StableHlo.seq hostOps0_1, StableHlo.seq hostOps0_2, StableHlo.seq hostOps0_3,
          Prog.lift (.customCall (Pipeline.entry 0) ()),
          StableHlo.seq hostOps1, StableHlo.seq hostOps1_1, StableHlo.seq hostOps1_2,
          Prog.lift (.customCall (Pipeline.entry 1) ()),
          StableHlo.seq hostOps2, StableHlo.seq hostOps2_1, StableHlo.seq hostOps2_2,
          Prog.lift (.customCall (Pipeline.entry 2) ()),
          StableHlo.seq hostOps3, StableHlo.seq hostOps3_1, StableHlo.seq hostOps3_2, StableHlo.seq hostOps3_3, StableHlo.seq hostOps3_4,
          Prog.lift (.customCall (Pipeline.entry 3) ()) ] from rfl]
      exact .rfl)
    (fun c => by simp only [Gen.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m (leaves m) c))
    (hch := fun c => ⟨.rfl, .rfl, .rfl, .rfl, .rfl, .rfl, .rfl, .rfl, .rfl, .rfl, .rfl, .rfl, .rfl, .rfl, .rfl, .rfl, .rfl, .rfl, .rfl, sep_mono .rfl (hE4 c)⟩)
    (hinit := ?_) (QY := fun c s => Ends m c (left3 m c) s.mem)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V19 m (leaves m) c) s') $$ [Hh HSI]
    · isplitl [Hh] <;> iassumption
    icases Hr with ⟨%h, HSI⟩
    imodintro
    isplitr
    · ipureintro
      have rd (b : Ref sig .tc) (hb) := h (Proc.devRef .tc b) (Finset.mem_filter.mpr ⟨StableHlo.devRef_mem_tcRefs b, hb⟩)
      exact ⟨(rd main_v56 (by decide)).trans (V19_out m c),
        (rd main_arg0 (by decide)).trans (V19_main_arg0 m (leaves m) c),
        (rd main_arg1 (by decide)).trans (V19_main_arg1 m (leaves m) c),
        (rd main_arg2 (by decide)).trans (V19_main_arg2 m (leaves m) c),
        (rd main_arg3 (by decide)).trans (V19_main_arg3 m (leaves m) c),
        (rd main_arg4 (by decide)).trans (V19_main_arg4 m (leaves m) c),
        (rd main_arg5 (by decide)).trans (V19_main_arg5 m (leaves m) c),
        (rd main_arg6 (by decide)).trans (V19_main_arg6 m (leaves m) c),
        (rd main_arg7 (by decide)).trans (V19_main_arg7 m (leaves m) c),
        (rd main_arg8 (by decide)).trans (V19_main_arg8 m (leaves m) c),
        (rd main_arg9 (by decide)).trans (V19_main_arg9 m (leaves m) c),
        (rd main_arg10 (by decide)).trans (V19_main_arg10 m (leaves m) c)⟩
    · iexact HSI

end Cert.Kernel.Fr

end
-- ==== Proof.Spec.lean ====
import Idealize.ShloMosaic.PureOps.Ideal

noncomputable section

open scoped BigOperators
open Idealize.ShloMosaic

namespace Cert.Spec

abbrev NN : Nat := 100000
abbrev EE : Nat := 1600000
abbrev GG : Nat := 1024

variable (D : Fin NN → EReal) (s : Fin EE → Fin NN) (d : Fin EE → ℤ)

def into (d : Fin EE → ℤ) (v : Fin NN) : Finset (Fin EE) := Finset.univ.filter fun e => d e = (v.val : ℤ)

def lin {K Fo : Nat} (a : Fin NN → Fin K → EReal) (W : Fin K → Fin Fo → EReal) : Fin NN → Fin Fo → EReal :=
  fun v f => ∑ k, a v k * W k f

def relu {Fo : Nat} (a : Fin NN → Fin Fo → EReal) : Fin NN → Fin Fo → EReal := fun v f => max (a v f) 0

def aggK {Fo : Nat} (h : Fin NN → Fin Fo → EReal) (b : Fin Fo → EReal) : Fin NN → Fin Fo → EReal :=
  fun v f => D v * ((0 + ∑ e ∈ into d v, h (s e) f * D (s e)) + h v f * D v) + b f

def aggR {Fo : Nat} (h : Fin NN → Fin Fo → EReal) (b : Fin Fo → EReal) : Fin NN → Fin Fo → EReal :=
  fun v f => ((0 + ∑ e ∈ into d v, h (s e) f * (D (s e) * D v)) + h v f * (D v * D v)) + b f

variable (x : Fin NN → Fin 128 → EReal) (W1 : Fin 128 → Fin 32 → EReal) (b1 : Fin 32 → EReal)
  (W2 : Fin 32 → Fin 64 → EReal) (b2 : Fin 64 → EReal) (W3 : Fin 64 → Fin 128 → EReal) (b3 : Fin 128 → EReal)

def netK : Fin NN → Fin 128 → EReal :=
  aggK D s d (lin (relu (aggK D s d (lin (relu (aggK D s d (lin x W1) b1)) W2) b2)) W3) b3

def netR : Fin NN → Fin 128 → EReal :=
  aggR D s d (lin (relu (aggR D s d (lin (relu (aggR D s d (lin x W1) b1)) W2) b2)) W3) b3

def members (bat : Fin NN → ℤ) (g : Fin GG) : Finset (Fin NN) := Finset.univ.filter fun v => bat v = (g.val : ℤ)

def pool (bat : Fin NN → ℤ) (h : Fin NN → Fin 128 → EReal) (Wl : Fin 128 → EReal) (bl : EReal) : Fin GG → EReal :=
  fun g => (∑ f, Ideal.div (0 + ∑ v ∈ members bat g, h v f) (max (0 + ∑ _v ∈ members bat g, (1 : EReal)) 1) * Wl f) + bl

def ScaleOK (D : Fin NN → EReal) : Prop := ∀ v, ∃ r : ℝ, 0 ≤ r ∧ D v = (r : EReal)

end Cert.Spec

end
-- ==== Proof.Views.lean ====
import proofs.«415774_j67989332296056_2_alg».proof.Proof.Spec
import Idealize.ShloMosaic.Lib.ValueIdx

noncomputable section

open scoped BigOperators
open Idealize.ShloMosaic Idealize.ShloMosaic.ValueIdx

namespace Cert.Views

open Cert.Spec

variable (x0 : (⟨2, ![100000, 128]⟩ : Shape).Idx → EReal) (x1 : (⟨2, ![2, 1600000]⟩ : Shape).Idx → BitVec 32)
  (x2 : (⟨1, ![100000]⟩ : Shape).Idx → BitVec 32) (x3 : (⟨2, ![128, 32]⟩ : Shape).Idx → EReal) (x4 : (⟨1, ![32]⟩ : Shape).Idx → EReal)
  (x5 : (⟨2, ![32, 64]⟩ : Shape).Idx → EReal) (x6 : (⟨1, ![64]⟩ : Shape).Idx → EReal) (x7 : (⟨2, ![64, 128]⟩ : Shape).Idx → EReal)
  (x8 : (⟨1, ![128]⟩ : Shape).Idx → EReal) (x9 : (⟨2, ![128, 1]⟩ : Shape).Idx → EReal) (x10 : (⟨1, ![1]⟩ : Shape).Idx → EReal)

def srcZ (e : Fin EE) : ℤ := (x1 (ix2 (0 : Fin 2) e)).toInt

def dstZ (e : Fin EE) : ℤ := (x1 (ix2 (1 : Fin 2) e)).toInt

def batZ (v : Fin NN) : ℤ := (x2 (ix1 v)).toInt

def SrcOK : Prop := ∀ e : Fin EE, 0 ≤ srcZ x1 e ∧ srcZ x1 e < 100000

def srcOf (h : SrcOK x1) (e : Fin EE) : Fin NN :=
  ⟨(srcZ x1 e).toNat, by
    obtain ⟨h0, h1⟩ := h e
    show (srcZ x1 e).toNat < 100000
    omega⟩

def scaleOf (v : Fin NN) : EReal :=
  Ideal.rsqrt ((0 + ∑ _e ∈ into (dstZ x1) v, (1 : EReal)) + 1)

def mat {n k : Nat} (a : (⟨2, ![n, k]⟩ : Shape).Idx → EReal) : Fin n → Fin k → EReal := fun p q => a (ix2 p q)

def vec {n : Nat} (a : (⟨1, ![n]⟩ : Shape).Idx → EReal) : Fin n → EReal := fun p => a (ix1 p)

def col {n : Nat} (a : (⟨2, ![n, 1]⟩ : Shape).Idx → EReal) : Fin n → EReal := fun p => a (ix2 p (0 : Fin 1))

def outK (h : SrcOK x1) (g : Fin GG) : EReal :=
  pool (batZ x2) (netK (scaleOf x1) (srcOf x1 h) (dstZ x1) (mat x0) (mat x3) (vec x4) (mat x5) (vec x6) (mat x7) (vec x8))
    (col x9) (x10 (ix1 (0 : Fin 1))) g

def outR (h : SrcOK x1) (g : Fin GG) : EReal :=
  pool (batZ x2) (netR (scaleOf x1) (srcOf x1 h) (dstZ x1) (mat x0) (mat x3) (vec x4) (mat x5) (vec x6) (mat x7) (vec x8))
    (col x9) (x10 (ix1 (0 : Fin 1))) g

end Cert.Views

end
-- ==== Proof.SpecLaw.lean ====
import proofs.«415774_j67989332296056_2_alg».proof.Proof.Spec
import proofs.«415774_j67989332296056_2_alg».proof.Proof.Views
import Mathlib.Data.EReal.Basic
import Mathlib.Data.EReal.Operations
import Mathlib.Data.EReal.Inv
import Mathlib.Algebra.BigOperators.Fin
import Mathlib.Algebra.BigOperators.Group.Finset.Basic

noncomputable section

open scoped BigOperators
open Idealize.ShloMosaic Idealize.ShloMosaic.ValueIdx

namespace Cert.SpecLaw

open Cert.Spec Cert.Views

theorem coe_mul_add (r : ℝ) (hr : 0 ≤ r) (y z : EReal) : (r : EReal) * (y + z) = (r : EReal) * y + (r : EReal) * z :=
  EReal.left_distrib_of_nonneg_of_ne_top (by exact_mod_cast hr) (EReal.coe_ne_top r) y z

theorem coe_mul_sum {ι : Type} (r : ℝ) (hr : 0 ≤ r) (S : Finset ι) (f : ι → EReal) :
    (r : EReal) * ∑ i ∈ S, f i = ∑ i ∈ S, (r : EReal) * f i := by
  classical
  induction S using Finset.induction_on with
  | empty => simp
  | insert a S ha ih => rw [Finset.sum_insert ha, Finset.sum_insert ha, coe_mul_add r hr, ih]

theorem aggK_eq_aggR {Fo : Nat} (D : Fin NN → EReal) (hD : ScaleOK D) (s : Fin EE → Fin NN) (d : Fin EE → ℤ)
    (h : Fin NN → Fin Fo → EReal) (b : Fin Fo → EReal) : aggK D s d h b = aggR D s d h b := by
  funext v f
  obtain ⟨r, hr, hDv⟩ := hD v
  unfold aggK aggR
  rw [hDv, coe_mul_add r hr, coe_mul_add r hr, mul_zero, coe_mul_sum r hr]
  have e1 : ∀ e : Fin EE, (r : EReal) * (h (s e) f * D (s e)) = h (s e) f * (D (s e) * (r : EReal)) := fun e => by
    rw [mul_comm (r : EReal), mul_assoc]
  have e2 : (r : EReal) * (h v f * (r : EReal)) = h v f * ((r : EReal) * (r : EReal)) := mul_left_comm _ _ _
  rw [Finset.sum_congr rfl (fun e _ => e1 e), e2]

theorem scaleOf_ok (x1 : (⟨2, ![2, 1600000]⟩ : Shape).Idx → BitVec 32) : ScaleOK (Cert.Views.scaleOf x1) := by
  intro v
  unfold Cert.Views.scaleOf
  generalize into (dstZ x1) v = I
  have hsum : (0 + ∑ _e ∈ I, (1 : EReal)) + 1 = (((I.card : ℝ) + 1 : ℝ) : EReal) := by
    rw [zero_add, Finset.sum_const, nsmul_one, EReal.coe_add, EReal.coe_one]
    rfl
  rw [hsum]
  have hpos : (0 : ℝ) < (I.card : ℝ) + 1 := by
    have := Nat.cast_nonneg (α := ℝ) I.card
    linarith
  refine ⟨(Real.sqrt ((I.card : ℝ) + 1))⁻¹, inv_nonneg.mpr (Real.sqrt_nonneg _), ?_⟩
  rw [Ideal.rsqrt_coe, if_neg (not_lt.mpr hpos.le), if_neg hpos.ne']

theorem outK_eq_outR (x0 : (⟨2, ![100000, 128]⟩ : Shape).Idx → EReal) (x1 : (⟨2, ![2, 1600000]⟩ : Shape).Idx → BitVec 32)
    (x2 : (⟨1, ![100000]⟩ : Shape).Idx → BitVec 32) (x3 : (⟨2, ![128, 32]⟩ : Shape).Idx → EReal) (x4 : (⟨1, ![32]⟩ : Shape).Idx → EReal)
    (x5 : (⟨2, ![32, 64]⟩ : Shape).Idx → EReal) (x6 : (⟨1, ![64]⟩ : Shape).Idx → EReal) (x7 : (⟨2, ![64, 128]⟩ : Shape).Idx → EReal)
    (x8 : (⟨1, ![128]⟩ : Shape).Idx → EReal) (x9 : (⟨2, ![128, 1]⟩ : Shape).Idx → EReal) (x10 : (⟨1, ![1]⟩ : Shape).Idx → EReal)
    (h : SrcOK x1) (g : Fin GG) :
    Cert.Views.outK x0 x1 x2 x3 x4 x5 x6 x7 x8 x9 x10 h g = Cert.Views.outR x0 x1 x2 x3 x4 x5 x6 x7 x8 x9 x10 h g := by
  unfold Cert.Views.outK Cert.Views.outR netK netR
  rw [aggK_eq_aggR _ (scaleOf_ok x1), aggK_eq_aggR _ (scaleOf_ok x1), aggK_eq_aggR _ (scaleOf_ok x1)]

theorem sum_indicator_mul {n : Nat} (P : Fin n → Prop) [DecidablePred P] (a : Fin n → EReal) :
    ∑ p, (if P p then (1 : EReal) else 0) * a p = ∑ p ∈ Finset.univ.filter P, a p := by
  rw [Finset.sum_filter]
  refine Finset.sum_congr rfl fun p _ => ?_
  by_cases hp : P p <;> simp [hp]

theorem sum_indicator {n : Nat} (P : Fin n → Prop) [DecidablePred P] :
    ∑ p, (if P p then (1 : EReal) else 0) = ∑ _p ∈ Finset.univ.filter P, (1 : EReal) := by
  rw [Finset.sum_filter]

theorem sum_pad_zero {n H : Nat} (f : Fin (n + H) → EReal) (hz : ∀ p : Fin (n + H), n ≤ p.val → f p = 0) :
    ∑ p, f p = ∑ v : Fin n, f (Fin.castAdd H v) := by
  rw [Fin.sum_univ_add]
  have h0 : ∑ i : Fin H, f (Fin.natAdd n i) = 0 :=
    Finset.sum_eq_zero fun i _ => hz _ (by simp [Fin.natAdd])
  rw [h0, add_zero]

end Cert.SpecLaw

end
-- ==== Proof.Val.KLaw.lean ====
import proofs.«415774_j67989332296056_2_alg».proof.Proof.Spec
import proofs.«415774_j67989332296056_2_alg».proof.Proof.Views
import proofs.«415774_j67989332296056_2_alg».proof.Proof.SpecLaw
import Mathlib.Data.EReal.Basic
import Mathlib.Data.EReal.Operations
import Mathlib.Algebra.BigOperators.Fin
import Mathlib.Algebra.BigOperators.Group.Finset.Basic

noncomputable section

open scoped BigOperators
open Idealize.ShloMosaic

namespace Cert.PadLaw

open Cert.Spec

def padIx (v : Fin 100000) : Fin 102400 := ⟨v.val, by have := v.isLt; omega⟩

/-- An array given on the first 100000 rows by `a` reads `a v` at node `v`'s row. -/
theorem dite_padIx {α : Type} (a : Fin 100000 → α) (z : α) (v : Fin 100000) :
    (if hp : (padIx v).val < 100000 then a ⟨(padIx v).val, hp⟩ else z) = a v :=
  dif_pos v.isLt

section Layer

variable {K Fo : Nat} (D : Fin NN → EReal) (s : Fin EE → Fin NN) (d : Fin EE → ℤ) (Dp : Fin 102400 → EReal)
  (hDp : ∀ p : Fin 102400, Dp p = if hp : p.val < 100000 then D ⟨p.val, hp⟩ else 0)
include hDp

theorem layer_first (a : Fin NN → Fin K → EReal) (W : Fin K → Fin Fo → EReal) (X : Fin 102400 → Fin K → EReal)
    (hX : ∀ (p : Fin 102400) (k : Fin K), X p k = if hp : p.val < 100000 then a ⟨p.val, hp⟩ k else 0)
    (v : Fin NN) (q : Fin Fo) :
    (∑ k : Fin K, X (padIx v) k * W k q) * Dp (padIx v) = lin a W v q * D v := by
  rw [hDp, dite_padIx (fun v => D v) 0 v]
  unfold lin
  rw [Finset.sum_congr rfl fun k _ => by rw [hX, dite_padIx (fun v => a v k) 0 v]]

variable (hprev : Fin NN → Fin K → EReal) (B : Fin K → EReal) (L SC : Fin 102400 → Fin K → EReal)
  (hL : ∀ (v : Fin NN) (k : Fin K), L (padIx v) k = hprev v k * D v)
  (hSC : ∀ (p : Fin 102400) (k : Fin K), SC p k =
    if hp : p.val < 100000 then 0 + ∑ e ∈ into d ⟨p.val, hp⟩, L (padIx (s e)) k else 0)
include hL hSC

theorem inner_eq (v : Fin NN) (k : Fin K) :
    Dp (padIx v) * (SC (padIx v) k + L (padIx v) k) + B k = aggK D s d hprev B v k := by
  rw [hDp, dite_padIx (fun v => D v) 0 v, hSC,
    dite_padIx (fun v => 0 + ∑ e ∈ into d v, L (padIx (s e)) k) 0 v, hL]
  unfold aggK
  rw [Finset.sum_congr rfl fun e _ => hL (s e) k]

theorem layer_next (W : Fin K → Fin Fo → EReal) (v : Fin NN) (q : Fin Fo) :
    (∑ k : Fin K, max (Dp (padIx v) * (SC (padIx v) k + L (padIx v) k) + B k) 0 * W k q) * Dp (padIx v)
      = lin (relu (aggK D s d hprev B)) W v q * D v := by
  rw [Finset.sum_congr rfl fun k _ => by rw [inner_eq D s d Dp hDp hprev B L SC hL hSC v k],
    hDp, dite_padIx (fun v => D v) 0 v]
  rfl

end Layer

theorem ofNat_eq_iff_toInt (w : BitVec 32) (g : Fin 1024) : BitVec.ofNat 32 g.val = w ↔ w.toInt = (g.val : ℤ) := by
  have hg := g.isLt
  have hw := w.isLt
  rw [BitVec.toInt_eq_toNat_cond, ← BitVec.toNat_inj, BitVec.toNat_ofNat]
  split_ifs <;> omega

theorem ofNat_ne_allOnes (g : Fin 1024) : BitVec.ofNat 32 g.val ≠ 4294967295#32 := by
  have hg := g.isLt
  rw [Ne, ← BitVec.toNat_inj, BitVec.toNat_ofNat, BitVec.toNat_ofNat]
  omega

section Pool

variable (bw : Fin NN → BitVec 32) (lab : Fin 102400 → BitVec 32)
  (hlab : ∀ p : Fin 102400, lab p = if hp : p.val < 100000 then bw ⟨p.val, hp⟩ else 4294967295#32)
include hlab

/-- Padding rows carry the label of no graph, so only the members' rows weigh in. -/
theorem pool_sum (T : Fin 102400 → EReal) (t : Fin NN → EReal) (hT : ∀ v : Fin NN, T (padIx v) = t v) (g : Fin 1024) :
    ∑ p : Fin 102400, (if BitVec.ofNat 32 g.val = lab p then (1 : EReal) else 0) * T p
      = ∑ v ∈ members (fun v => (bw v).toInt) g, t v := by
  refine (Cert.SpecLaw.sum_pad_zero (n := 100000) (H := 2400)
    (fun p : Fin 102400 => (if BitVec.ofNat 32 g.val = lab p then (1 : EReal) else 0) * T p) fun p hp => by
      rw [hlab p, dif_neg (by omega), if_neg (ofNat_ne_allOnes g), zero_mul]).trans ?_
  unfold members
  rw [← Cert.SpecLaw.sum_indicator_mul]
  refine Finset.sum_congr rfl fun v _ => ?_
  rw [show Fin.castAdd 2400 v = padIx v from rfl, hT, hlab, dite_padIx bw _ v,
    if_congr (ofNat_eq_iff_toInt (bw v) g) rfl rfl]

theorem pool_cnt (g : Fin 1024) :
    ∑ p : Fin 102400, (if BitVec.ofNat 32 g.val = lab p then (1 : EReal) else 0)
      = ∑ _v ∈ members (fun v => (bw v).toInt) g, (1 : EReal) := by
  simpa only [mul_one] using pool_sum bw lab hlab (fun _ => 1) (fun _ => 1) (fun _ => rfl) g

end Pool

/-- Layer by layer the arrays are, on the nodes' rows, the specification's layers times the scale; the pooling sees only those rows. -/
theorem padded_chain_read
    (D : Fin NN → EReal) (s : Fin EE → Fin NN) (d : Fin EE → ℤ)
    (x : Fin NN → Fin 128 → EReal) (W1 : Fin 128 → Fin 32 → EReal) (b1 : Fin 32 → EReal)
    (W2 : Fin 32 → Fin 64 → EReal) (b2 : Fin 64 → EReal) (W3 : Fin 64 → Fin 128 → EReal) (b3 : Fin 128 → EReal)
    (Wl : Fin 128 → EReal) (bl : EReal) (bw : Fin NN → BitVec 32)
    (Dp0 Dp1 Dp2 Dp3 : Fin 102400 → EReal) (X : Fin 102400 → Fin 128 → EReal)
    (L0 SC1 : Fin 102400 → Fin 32 → EReal) (L1 SC2 : Fin 102400 → Fin 64 → EReal)
    (L2 SC3 : Fin 102400 → Fin 128 → EReal) (lab : Fin 102400 → BitVec 32)
    (W1r : Fin 128 → Fin 32 → EReal) (B1r : Fin 32 → EReal) (W2r : Fin 32 → Fin 64 → EReal) (B2r : Fin 64 → EReal)
    (W3r : Fin 64 → Fin 128 → EReal) (B3r : Fin 128 → EReal) (Wlr : Fin 128 → EReal) (blr : EReal)
    (L0r : Fin 102400 → Fin 32 → EReal) (L1r : Fin 102400 → Fin 64 → EReal) (L2r : Fin 102400 → Fin 128 → EReal)
    (hW1 : ∀ k q, W1r k q = W1 k q) (hB1 : ∀ k, B1r k = b1 k) (hW2 : ∀ k q, W2r k q = W2 k q) (hB2 : ∀ k, B2r k = b2 k)
    (hW3 : ∀ k q, W3r k q = W3 k q) (hB3 : ∀ k, B3r k = b3 k) (hWl : ∀ f, Wlr f = Wl f) (hbl : blr = bl)
    (hL0r : ∀ p k, L0r p k = L0 p k) (hL1r : ∀ p k, L1r p k = L1 p k) (hL2r : ∀ p k, L2r p k = L2 p k)
    (hD0 : ∀ p : Fin 102400, Dp0 p = if hp : p.val < 100000 then D ⟨p.val, hp⟩ else 0)
    (hD1 : ∀ p : Fin 102400, Dp1 p = if hp : p.val < 100000 then D ⟨p.val, hp⟩ else 0)
    (hD2 : ∀ p : Fin 102400, Dp2 p = if hp : p.val < 100000 then D ⟨p.val, hp⟩ else 0)
    (hD3 : ∀ p : Fin 102400, Dp3 p = if hp : p.val < 100000 then D ⟨p.val, hp⟩ else 0)
    (hX : ∀ (p : Fin 102400) (k : Fin 128), X p k = if hp : p.val < 100000 then x ⟨p.val, hp⟩ k else 0)
    (hL0 : ∀ (p : Fin 102400) (q : Fin 32), L0 p q = (∑ k : Fin 128, X p k * W1r k q) * Dp0 p)
    (hSC1 : ∀ (p : Fin 102400) (k : Fin 32), SC1 p k =
      if hp : p.val < 100000 then 0 + ∑ e ∈ into d ⟨p.val, hp⟩, L0 (padIx (s e)) k else 0)
    (hL1 : ∀ (p : Fin 102400) (q : Fin 64), L1 p q =
      (∑ k : Fin 32, max (Dp1 p * (SC1 p k + L0r p k) + B1r k) 0 * W2r k q) * Dp1 p)
    (hSC2 : ∀ (p : Fin 102400) (k : Fin 64), SC2 p k =
      if hp : p.val < 100000 then 0 + ∑ e ∈ into d ⟨p.val, hp⟩, L1 (padIx (s e)) k else 0)
    (hL2 : ∀ (p : Fin 102400) (q : Fin 128), L2 p q =
      (∑ k : Fin 64, max (Dp2 p * (SC2 p k + L1r p k) + B2r k) 0 * W3r k q) * Dp2 p)
    (hSC3 : ∀ (p : Fin 102400) (k : Fin 128), SC3 p k =
      if hp : p.val < 100000 then 0 + ∑ e ∈ into d ⟨p.val, hp⟩, L2 (padIx (s e)) k else 0)
    (hlab : ∀ p : Fin 102400, lab p = if hp : p.val < 100000 then bw ⟨p.val, hp⟩ else 4294967295#32)
    (g : Fin 1024) :
    (∑ f : Fin 128,
        Ideal.div
          (∑ p : Fin 102400, (if BitVec.ofNat 32 g.val = lab p then (1 : EReal) else 0) *
            (Dp3 p * (SC3 p f + L2r p f) + B3r f))
          (max (∑ p : Fin 102400, (if BitVec.ofNat 32 g.val = lab p then (1 : EReal) else 0)) 1) * Wlr f) + blr
      = pool (fun v => (bw v).toInt) (netK D s d x W1 b1 W2 b2 W3 b3) Wl bl g := by
  obtain rfl := funext₂ hW1; obtain rfl := funext₂ hW2; obtain rfl := funext₂ hW3
  obtain rfl := funext hB1; obtain rfl := funext hB2; obtain rfl := funext hB3; obtain rfl := funext hWl
  obtain rfl := funext₂ hL0r; obtain rfl := funext₂ hL1r; obtain rfl := funext₂ hL2r
  subst hbl
  have r0 := fun v q => (hL0 (padIx v) q).trans (layer_first D Dp0 hD0 x _ X hX v q)
  have r1 := fun v q => (hL1 (padIx v) q).trans (layer_next D s d Dp1 hD1 _ _ _ SC1 r0 hSC1 _ v q)
  have r2 := fun v q => (hL2 (padIx v) q).trans (layer_next D s d Dp2 hD2 _ _ _ SC2 r1 hSC2 _ v q)
  unfold pool
  rw [pool_cnt bw lab hlab g, zero_add]
  refine congrArg (· + _) (Finset.sum_congr rfl fun f _ => ?_)
  rw [pool_sum bw lab hlab _ _ (fun v => inner_eq D s d Dp3 hD3 _ _ _ SC3 r2 hSC3 v f) g, zero_add]
  rfl

end Cert.PadLaw

end
-- ==== Proof.LibRead.lean ====
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.KernelVsHost

noncomputable section

open scoped BigOperators

namespace Cert.LibRead

open Idealize.ShloMosaic Idealize.ShloMosaic.ValueIdx

abbrev scatterRowsDims (N E Fo : Nat)
    (wf : ScatterDims.WF ⟨2, ![N, Fo]⟩ ⟨2, ![E, 1]⟩ ⟨2, ![E, Fo]⟩ [1] [0] [0] 1) :
    ScatterDims ⟨2, ![N, Fo]⟩ ⟨2, ![E, 1]⟩ ⟨2, ![E, Fo]⟩ where
  updateWindowDims := [1]
  insertedWindowDims := [0]
  scatterDimsToOperandDims := [0]
  indexVectorDim := 1
  wf := wf

abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An update lands on `r` exactly when start plus window coordinate is `r`'s coordinate on every axis. -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : ℤ) := by
  unfold ScatterDims.resultIdx?
  constructor
  · intro h a
    split at h
    · rename_i hc
      have h' : (d.start j idx a + d.window j a).toNat = (r a).val := congrArg (fun k => (k a).val) (Option.some.inj h)
      have := (hc a).1
      omega
    · exact absurd h (by simp)
  · intro h
    have hc : ∀ a, 0 ≤ d.start j idx a + d.window j a ∧ d.start j idx a + d.window j a < s.size a := fun a => by
      rw [h a]; have := (r a).isLt; omega
    rw [dif_pos hc]
    exact congrArg some (funext fun a => Fin.ext (by
      show (d.start j idx a + d.window j a).toNat = (r a).val
      rw [h a]; omega))

section ScatterRows
variable {N E Fo w : Nat} (wf : ScatterDims.WF ⟨2, ![N, Fo]⟩ ⟨2, ![E, 1]⟩ ⟨2, ![E, Fo]⟩ [1] [0] [0] 1)

theorem rows_start0 (idx : IVec ⟨2, ![E, 1]⟩ w) (e : Fin E) (b : Fin Fo) :
    (scatterRowsDims N E Fo wf).start (ix2 e b) idx 0 = (idx (ix2 e (0 : Fin 1))).toInt := by
  unfold ScatterDims.start
  rw [dif_pos (show (0 : Fin 2) ∈ [0] from List.mem_singleton.mpr rfl)]
  exact congrArg (fun k => (idx k).toInt) (funext fun c => Fin.ext (match c with | ⟨0, _⟩ => rfl | ⟨1, _⟩ => rfl))

theorem rows_start1 (idx : IVec ⟨2, ![E, 1]⟩ w) (e : Fin E) (b : Fin Fo) :
    (scatterRowsDims N E Fo wf).start (ix2 e b) idx 1 = 0 := by
  unfold ScatterDims.start
  rw [dif_neg (by simp)]

theorem rows_window0 (e : Fin E) (b : Fin Fo) : (scatterRowsDims N E Fo wf).window (ix2 e b) 0 = 0 := by
  unfold ScatterDims.window
  rw [dif_neg (by simp [Shape.kept])]

theorem rows_window1 (e : Fin E) (b : Fin Fo) : (scatterRowsDims N E Fo wf).window (ix2 e b) 1 = b.val := by
  unfold ScatterDims.window
  rw [dif_pos (by simp [Shape.kept])]
  rfl

theorem rows_resultIdx_iff (idx : IVec ⟨2, ![E, 1]⟩ w) (e : Fin E) (b : Fin Fo) (v : Fin N) (f : Fin Fo) :
    (scatterRowsDims N E Fo wf).resultIdx? (ix2 e b) idx = some (ix2 v f)
      ↔ (idx (ix2 e (0 : Fin 1))).toInt = (v.val : ℤ) ∧ b = f := by
  rw [resultIdx?_eq_some_iff, Fin.forall_fin_two, rows_start0, rows_window0, rows_start1, rows_window1]
  show _ + ((0 : ℕ) : ℤ) = (v.val : ℤ) ∧ (0 : ℤ) + (b.val : ℤ) = (f.val : ℤ) ↔ _
  constructor
  · rintro ⟨h0, h1⟩; exact ⟨by omega, Fin.ext (by omega)⟩
  · rintro ⟨h0, rfl⟩; exact ⟨by omega, by omega⟩

end ScatterRows

theorem scatterAdd_rows_apply {N E Fo w : Nat} {φ : FTy}
    (wf : ScatterDims.WF ⟨2, ![N, Fo]⟩ ⟨2, ![E, 1]⟩ ⟨2, ![E, Fo]⟩ [1] [0] [0] 1)
    (x : FVec Ideal ⟨2, ![N, Fo]⟩ φ) (idx : IVec ⟨2, ![E, 1]⟩ w) (upd : FVec Ideal ⟨2, ![E, Fo]⟩ φ)
    (v : Fin N) (f : Fin Fo) :
    Host.scatterAdd (F := Ideal) (scatterRowsDims N E Fo wf) x idx upd (ix2 v f)
      = x (ix2 v f) + ∑ e ∈ Finset.univ.filter (fun e : Fin E => (idx (ix2 e (0 : Fin 1))).toInt = (v.val : ℤ)),
          upd (ix2 e f) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [rows_resultIdx_iff]
  by_cases ht : (idx (ix2 e (0 : Fin 1))).toInt = (v.val : ℤ)
  · simp only [ht, true_and, if_true]
    rw [Finset.sum_ite_eq' Finset.univ f (fun b => upd (ix2 e b))]
    simp
  · simp [ht]

section ScatterFlat
variable {N E w : Nat} (wf : ScatterDims.WF ⟨1, ![N]⟩ ⟨2, ![E, 1]⟩ ⟨1, ![E]⟩ [] [0] [0] 1)

theorem flat_start0 (idx : IVec ⟨2, ![E, 1]⟩ w) (e : Fin E) :
    (scatterFlatDims N E wf).start (ix1 e) idx 0 = (idx (ix2 e (0 : Fin 1))).toInt := by
  unfold ScatterDims.start
  rw [dif_pos (show (0 : Fin 1) ∈ [0] from List.mem_singleton.mpr rfl)]
  exact congrArg (fun k => (idx k).toInt) (funext fun c => Fin.ext (match c with | ⟨0, _⟩ => rfl | ⟨1, _⟩ => rfl))

theorem flat_window0 (e : Fin E) : (scatterFlatDims N E wf).window (ix1 e) 0 = 0 := by
  unfold ScatterDims.window
  rw [dif_neg (by simp [Shape.kept])]

theorem flat_resultIdx_iff (idx : IVec ⟨2, ![E, 1]⟩ w) (e : Fin E) (v : Fin N) :
    (scatterFlatDims N E wf).resultIdx? (ix1 e) idx = some (ix1 v)
      ↔ (idx (ix2 e (0 : Fin 1))).toInt = (v.val : ℤ) := by
  rw [resultIdx?_eq_some_iff, Fin.forall_fin_one, flat_start0, flat_window0]
  show _ + ((0 : ℕ) : ℤ) = (v.val : ℤ) ↔ _
  omega

end ScatterFlat

theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (v : Fin N) :
    Host.scatterAdd (F := Ideal) (scatterFlatDims N E wf) x idx upd (ix1 v)
      = x (ix1 v) + ∑ e ∈ Finset.univ.filter (fun e : Fin E => (idx (ix2 e (0 : Fin 1))).toInt = (v.val : ℤ)),
          upd (ix1 e) := by
  unfold Host.scatterAdd
  rw [Ideal.hostScatterAdd_def]
  unfold Ideal.hostScatterAdd
  congr 1
  rw [Finset.sum_filter, Finset.sum_filter, ← Equiv.sum_comp (idxEquiv1 (n := E)).symm]
  refine Finset.sum_congr rfl fun e _ => ?_
  show (if (scatterFlatDims N E wf).resultIdx? (ix1 e) idx = some (ix1 v) then upd (ix1 e) else 0) = _
  simp only [flat_resultIdx_iff]

abbrev gatherRowsDims (M E Fo : Nat)
    (wf : GatherDims.WF ⟨2, ![M, Fo]⟩ ⟨2, ![E, 1]⟩ ⟨2, ![E, Fo]⟩ [1] [0] [] [0] [] 1 ![1, Fo]) :
    GatherDims ⟨2, ![M, Fo]⟩ ⟨2, ![E, 1]⟩ ⟨2, ![E, Fo]⟩ where
  offsetDims := [1]
  collapsedSliceDims := [0]
  operandBatchingDims := []
  startIndicesBatchingDims := []
  startIndexMap := [0]
  indexVectorDim := 1
  sliceSizes := ![1, Fo]
  wf := wf

abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On a collapsed, start-indexed axis without batching the operand coordinate is the start index, clamped. -/
theorem operand_collapsed {s si t : Shape} (d : GatherDims s si t) {w : Nat} (j : t.Idx) (idx : IVec si w) (a : Fin s.rank)
    (k : si.Idx) (hb : a ∉ d.operandBatchingDims) (hc : a ∈ d.collapsedSliceDims) (hm : a ∈ d.startIndexMap)
    (hk : d.siIdx j ⟨d.startIndexMap.idxOf a, List.idxOf_lt_length_iff.2 hm⟩ = k) :
    (d.operandIdx j idx a).val = min (idx k).toInt.toNat (s.size a - 1) := by
  show d.start j idx a + d.batchCoord j a + d.offCoord j a = _
  unfold GatherDims.start
  rw [d.batchCoord_eq_zero j a hb, d.offCoord_eq_zero j a fun h => ((d.mem_sKept a).mp h).1 hc, dif_pos hm, hk,
    d.slice_collapsed a hc]
  rfl

theorem gather_rows_apply_of_inRange {α : Type} {M E Fo w : Nat}
    (wf : GatherDims.WF ⟨2, ![M, Fo]⟩ ⟨2, ![E, 1]⟩ ⟨2, ![E, Fo]⟩ [1] [0] [] [0] [] 1 ![1, Fo])
    (x : (⟨2, ![M, Fo]⟩ : Shape).Idx → α) (idx : IVec ⟨2, ![E, 1]⟩ w) (e : Fin E) (f : Fin Fo)
    (h0 : 0 ≤ (idx (ix2 e (0 : Fin 1))).toInt) (h1 : (idx (ix2 e (0 : Fin 1))).toInt < (M : ℤ)) :
    Host.gather (gatherRowsDims M E Fo wf) x idx (ix2 e f)
      = x (ix2 ⟨(idx (ix2 e (0 : Fin 1))).toInt.toNat, by omega⟩ f) := by
  unfold Host.gather
  refine congrArg x (funext fun a => Fin.ext ?_)
  match a with
  | ⟨0, _⟩ =>
    refine (operand_collapsed (gatherRowsDims M E Fo wf) _ idx 0 (ix2 e (0 : Fin 1)) List.not_mem_nil
      (List.mem_singleton.mpr rfl) (List.mem_singleton.mpr rfl) (funext fun c => Fin.ext (match c with | ⟨0, _⟩ => rfl | ⟨1, _⟩ => rfl))).trans ?_
    show min (idx (ix2 e (0 : Fin 1))).toInt.toNat (M - 1) = (idx (ix2 e (0 : Fin 1))).toInt.toNat
    omega
  | ⟨1, _⟩ =>
    show (gatherRowsDims M E Fo wf).start (ix2 e f) idx 1 + (gatherRowsDims M E Fo wf).batchCoord (ix2 e f) 1
      + (gatherRowsDims M E Fo wf).offCoord (ix2 e f) 1 = f.val
    unfold GatherDims.start GatherDims.offCoord
    rw [GatherDims.batchCoord_eq_zero _ _ _ List.not_mem_nil, dif_neg (by simp),
      dif_pos ((GatherDims.mem_sKept _ _).mpr ⟨by simp, List.not_mem_nil⟩)]
    exact Nat.zero_add _

theorem gather_flat_apply_of_inRange {α : Type} {N E w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E)
    (h0 : 0 ≤ (idx (ix2 e (0 : Fin 1))).toInt) (h1 : (idx (ix2 e (0 : Fin 1))).toInt < (N : ℤ)) :
    Host.gather (gatherFlatDims N E wf) x idx (ix1 e)
      = x (ix1 ⟨(idx (ix2 e (0 : Fin 1))).toInt.toNat, by omega⟩) := by
  unfold Host.gather
  refine congrArg x (funext fun a => Fin.ext ?_)
  obtain rfl : a = 0 := Subsingleton.elim _ _
  refine (operand_collapsed (gatherFlatDims N E wf) _ idx 0 (ix2 e (0 : Fin 1)) List.not_mem_nil
    (List.mem_singleton.mpr rfl) (List.mem_singleton.mpr rfl) (funext fun c => Fin.ext (match c with | ⟨0, _⟩ => rfl | ⟨1, _⟩ => rfl))).trans ?_
  show min (idx (ix2 e (0 : Fin 1))).toInt.toNat (N - 1) = (idx (ix2 e (0 : Fin 1))).toInt.toNat
  omega

theorem pad_rows_apply {α : Type} {n k m H : Nat} (x : (⟨2, ![n, k]⟩ : Shape).Idx → α)
    (v : (⟨0, ![]⟩ : Shape).Idx → α)
    (h : (⟨2, ![n, k]⟩ : Shape).Pads ![0, 0] ![H, 0] ![0, 0] ⟨2, ![m, k]⟩)
    (hu : 0 < (⟨0, ![]⟩ : Shape).numel) (p : Fin m) (q : Fin k) :
    pad ⟨2, ![m, k]⟩ ![0, 0] ![H, 0] ![0, 0] x v h hu (ix2 p q)
      = if hp : p.val < n then x (ix2 ⟨p.val, hp⟩ q) else v ix0 := by
  split
  · rename_i hp
    refine pad_apply_of_inside _ _ _ x v h hu (ix2 p q) (ix2 ⟨p.val, hp⟩ q) fun a => ?_
    match a with
    | ⟨0, _⟩ => show p.val = 0 + p.val * (0 + 1); omega
    | ⟨1, _⟩ => show q.val = 0 + q.val * (0 + 1); omega
  · rename_i hp
    rw [pad_apply_of_not_inside _ _ _ x v h hu (ix2 p q) 0 (by
      show ¬(0 ≤ p.val ∧ (p.val - 0) % (0 + 1) = 0 ∧ (p.val - 0) / (0 + 1) < n)
      simp only [Nat.sub_zero, Nat.zero_add, Nat.div_one]; omega)]
    exact congrArg v (eq_ix0 _)

theorem pad_flat_apply {α : Type} {n m H : Nat} (x : (⟨1, ![n]⟩ : Shape).Idx → α)
    (v : (⟨0, ![]⟩ : Shape).Idx → α)
    (h : (⟨1, ![n]⟩ : Shape).Pads ![0] ![H] ![0] ⟨1, ![m]⟩)
    (hu : 0 < (⟨0, ![]⟩ : Shape).numel) (p : Fin m) :
    pad ⟨1, ![m]⟩ ![0] ![H] ![0] x v h hu (ix1 p)
      = if hp : p.val < n then x (ix1 ⟨p.val, hp⟩) else v ix0 := by
  split
  · rename_i hp
    refine pad_apply_of_inside _ _ _ x v h hu (ix1 p) (ix1 ⟨p.val, hp⟩) fun a => ?_
    match a with
    | ⟨0, _⟩ => show p.val = 0 + p.val * (0 + 1); omega
  · rename_i hp
    rw [pad_apply_of_not_inside _ _ _ x v h hu (ix1 p) 0 (by
      show ¬(0 ≤ p.val ∧ (p.val - 0) % (0 + 1) = 0 ∧ (p.val - 0) / (0 + 1) < n)
      simp only [Nat.sub_zero, Nat.zero_add, Nat.div_one]; omega)]
    exact congrArg v (eq_ix0 _)

end Cert.LibRead

end
-- ==== Proof.PreDecode.lean ====
import proofs.«415774_j67989332296056_2_alg».proof.Pre_finite_inputs
import proofs.«415774_j67989332296056_2_alg».proof.Proof.Gen.Pre_finite_inputs
import proofs.«415774_j67989332296056_2_alg».proof.Proof.Views
import Idealize.ShloMosaic.Lib.ReduceAll
import Idealize.ShloMosaic.Lib.ValueIdx
import Idealize.ShloMosaic.Lib.Pipeline.Value

noncomputable section

namespace Cert.PreDecode

open Idealize.ShloMosaic Idealize.ShloMosaic.ValueIdx Cert.Pre_finite_inputs

instance : Subsingleton S_.Idx := ⟨fun a b => funext fun d => d.elim0⟩

abbrev blk (e : Fin 1600000) : S1x1600000.Idx := ix2 (0 : Fin 1) e

theorem row0_apply (a1 : IVec S2x1600000 32) (hs : S2x1600000.Slices ![0, 0] S1x1600000)
    (hc : S1x1600000.ShapeCasts S1600000) (e : Fin 1600000) :
    shapeCast S1600000 (extractStridedSlice S1x1600000 ![0, 0] a1 hs) hc (ix1 e) = a1 (ix2 (0 : Fin 2) e) := by
  rw [shapeCast_apply _ hc (ix1 e) (blk e)
    (by rewrite [Shape.rowMajor_val_two, Shape.rowMajor_val_one]; show 0 * 1600000 + e.val = e.val; omega)]
  exact extractStridedSlice_apply ![0, 0] a1 hs (blk e) (ix2 (0 : Fin 2) e) (fun a => match a with
    | ⟨0, _⟩ => by show (0 : Nat) = 0 + 0; omega
    | ⟨1, _⟩ => by show e.val = 0 + e.val; omega)

theorem word_range {w w' : BitVec 32} (hw : w' = w) (h0 : IntOp.cmpi .sge w' 0#32 = 1#1)
    (h1 : IntOp.cmpi .slt w' 100000#32 = 1#1) : 0 ≤ w.toInt ∧ w.toInt < 100000 := by
  subst hw
  rw [IntOp.cmpi_sge, show (0#32 : BitVec 32).toInt = 0 from by decide] at h0
  rw [IntOp.cmpi_slt, show (100000#32 : BitVec 32).toInt = 100000 from by decide] at h1
  exact ⟨h0, h1⟩

theorem srcOK_of_fn [Facts] {F : FTy → Type} [FloatOps F] (a0 : FVec F S100000x128 .f32) (a1 : IVec S2x1600000 32)
    (a2 : IVec S100000 32) (a3 : FVec F S128x32 .f32) (a4 : FVec F S32 .f32) (a5 : FVec F S32x64 .f32)
    (a6 : FVec F S64 .f32) (a7 : FVec F S64x128 .f32) (a8 : FVec F S128 .f32) (a9 : FVec F S128x1 .f32)
    (a10 : FVec F S1 .f32)
    (h : Cert.Pre_finite_inputs.fn (F := F) a0 a1 a2 a3 a4 a5 a6 a7 a8 a9 a10 = fun _ => 1#1) :
    Cert.Views.SrcOK a1 := by
  have h0 := congrFun h ix0
  unfold fn fn_part1 fn_part2 fn_part3 at h0
  dsimp only at h0
  intro e
  obtain ⟨hge, hlt⟩ := IntOp.andi_eq_one.1 (Host.reduce_andi_all _ _ _ _ _ (IntOp.andi_eq_one.1 h0).2 (ix1 e))
  exact word_range (row0_apply a1 _ _ e) hge hlt

end Cert.PreDecode

end
-- ==== Proof.Val.HRpass.lean ====
import proofs.«415774_j67989332296056_2_alg».proof.Proof.Fr.Chain
import Idealize.ShloMosaic.PureOps.Ideal

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (c : Dev nD)

abbrev A0 : FVec Ideal S100000x128 .f32 := m ((c.tc : Thread nD τ).loc main_arg0)
abbrev A1 : IVec S2x1600000 32 := m ((c.tc : Thread nD τ).loc main_arg1)
abbrev A2 : IVec S100000 32 := m ((c.tc : Thread nD τ).loc main_arg2)
abbrev A3 : FVec Ideal S128x32 .f32 := m ((c.tc : Thread nD τ).loc main_arg3)
abbrev A4 : FVec Ideal S32 .f32 := m ((c.tc : Thread nD τ).loc main_arg4)
abbrev A5 : FVec Ideal S32x64 .f32 := m ((c.tc : Thread nD τ).loc main_arg5)
abbrev A6 : FVec Ideal S64 .f32 := m ((c.tc : Thread nD τ).loc main_arg6)
abbrev A7 : FVec Ideal S64x128 .f32 := m ((c.tc : Thread nD τ).loc main_arg7)
abbrev A8 : FVec Ideal S128 .f32 := m ((c.tc : Thread nD τ).loc main_arg8)
abbrev A9 : FVec Ideal S128x1 .f32 := m ((c.tc : Thread nD τ).loc main_arg9)
abbrev A10 : FVec Ideal S1 .f32 := m ((c.tc : Thread nD τ).loc main_arg10)

/-- Reads reference `r` at a region's entry, or between two items, down through every item that does not write it. -/
macro "vpass " r:term : tactic => `(tactic| ((try dsimp only [ent0, ent1, ent2, ent3, atTc]); repeat (first
    | rw [V18_of _ _ _ $r (by decide)] | rw [V17_of _ _ _ $r (by decide)] | rw [V16_of _ _ _ $r (by decide)]
    | rw [V15_of _ _ _ $r (by decide)] | rw [V14_of _ _ _ $r (by decide)] | rw [V13_of _ _ _ $r (by decide)]
    | rw [V12_of _ _ _ $r (by decide)] | rw [V11_of _ _ _ $r (by decide)] | rw [V10_of _ _ _ $r (by decide)]
    | rw [V9_of _ _ _ $r (by decide)] | rw [V8_of _ _ _ $r (by decide)] | rw [V7_of _ _ _ $r (by decide)]
    | rw [V6_of _ _ _ $r (by decide)] | rw [V5_of _ _ _ $r (by decide)] | rw [V4_of _ _ $r (by decide)]
    | rw [V3_of _ _ $r (by decide)] | rw [V2_of _ _ $r (by decide)] | rw [V1_of _ _ $r (by decide)])))

theorem ent0_arg3 : ent0 m c main_arg3 = A3 m c := by vpass main_arg3 <;> rfl
theorem ent1_arg5 : ent1 m c main_arg5 = A5 m c := by vpass main_arg5 <;> rfl
theorem ent2_arg7 : ent2 m c main_arg7 = A7 m c := by vpass main_arg7 <;> rfl
theorem ent3_arg9 : ent3 m c main_arg9 = A9 m c := by vpass main_arg9 <;> rfl

theorem V5_v14 : V5 m (leaves0 m) c main_v14 = left0 m c := (Function.update_self _ _ _).trans (leaves0_v14 m 5 c)
theorem V9_v27 : V9 m (leaves1 m) c main_v27 = left1 m c := (Function.update_self _ _ _).trans (leaves1_v27 m 9 c)
theorem V13_v40 : V13 m (leaves2 m) c main_v40 = left2 m c := (Function.update_self _ _ _).trans (leaves2_v40 m 13 c)

theorem ent1_v14 : ent1 m c main_v14 = left0 m c := by vpass main_v14; exact V5_v14 m c
theorem ent2_v27 : ent2 m c main_v27 = left1 m c := by vpass main_v27; exact V9_v27 m c
theorem ent3_v40 : ent3 m c main_v40 = left2 m c := by vpass main_v40; exact V13_v40 m c

end Cert.KernelIdeal.Val

end
-- ==== Proof.Val.HRsmall.lean ====
import proofs.«415774_j67989332296056_2_alg».proof.Proof.Fr.Chain
import proofs.«415774_j67989332296056_2_alg».proof.Proof.LibRead
import proofs.«415774_j67989332296056_2_alg».proof.Proof.Val.HRpass
import Idealize.ShloMosaic.Lib.StableHlo.Run
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

section Stretch
variable (W : Valuation τ sig (Elt Ideal))

theorem s12_v26 : StableHlo.after (hostOps1_2 (F := Ideal)) W (Proc.devRef .tc main_v26)
    = shapeCast S1x32 (W (Proc.devRef .tc main_arg4)) shapeCasts_S32_S1x32 := by
  after_results; rfl

theorem s22_v39 : StableHlo.after (hostOps2_2 (F := Ideal)) W (Proc.devRef .tc main_v39)
    = shapeCast S1x64 (W (Proc.devRef .tc main_arg6)) shapeCasts_S64_S1x64 := by
  after_results; rfl

theorem s32_c15 : StableHlo.after (hostOps3_2 (F := Ideal)) W (Proc.devRef .tc main_c_15)
    = constantI S_ 32 4294967295#32 := by
  after_results

theorem s33_v52 : StableHlo.after (hostOps3_3 (F := Ideal)) W (Proc.devRef .tc main_v52)
    = pad S102400 ![0] ![2400] ![0] (W (Proc.devRef .tc main_arg2)) (W (Proc.devRef .tc main_c_15))
        pads_S100000_S102400_024000 h_S_ := by
  after_results; rfl

theorem s34_v53 : StableHlo.after (hostOps3_4 (F := Ideal)) W (Proc.devRef .tc main_v53)
    = shapeCast S1x102400 (W (Proc.devRef .tc main_v52)) shapeCasts_S102400_S1x102400 := by
  after_results; rfl

theorem s34_v54 : StableHlo.after (hostOps3_4 (F := Ideal)) W (Proc.devRef .tc main_v54)
    = shapeCast S1x128 (W (Proc.devRef .tc main_arg8)) shapeCasts_S128_S1x128 := by
  after_results; rfl

theorem s34_v55 : StableHlo.after (hostOps3_4 (F := Ideal)) W (Proc.devRef .tc main_v55)
    = shapeCast S1x1 (W (Proc.devRef .tc main_arg10)) shapeCasts_S1_S1x1 := by
  after_results; rfl

end Stretch

variable (m : (ℓ : Loc nD τ sig) → Buf (Elt Ideal) ℓ) (c : Dev nD)

theorem bias1 (k : Fin 32) : ent1 m c main_v26 (ix2 (0 : Fin 1) k) = A4 m c (ix1 k) := by
  dsimp only [ent1, atTc]; unfold V8
  rw [s12_v26, shapeCast_a_1a_apply]; vpass main_arg4 <;> rfl

theorem bias2 (k : Fin 64) : ent2 m c main_v39 (ix2 (0 : Fin 1) k) = A6 m c (ix1 k) := by
  dsimp only [ent2, atTc]; unfold V12
  rw [s22_v39, shapeCast_a_1a_apply]; vpass main_arg6 <;> rfl

theorem bias3 (k : Fin 128) : ent3 m c main_v54 (ix2 (0 : Fin 1) k) = A8 m c (ix1 k) := by
  dsimp only [ent3, atTc]; unfold V18
  rw [s34_v54, shapeCast_a_1a_apply]; vpass main_arg8 <;> rfl

theorem blin : ent3 m c main_v55 (ix2 (0 : Fin 1) (0 : Fin 1)) = A10 m c (ix1 (0 : Fin 1)) := by
  dsimp only [ent3, atTc]; unfold V18
  rw [s34_v55, shapeCast_a_1a_apply]; vpass main_arg10 <;> rfl

theorem labelsP (p : Fin 102400) : ent3 m c main_v53 (ix2 (0 : Fin 1) p)
    = if hp : p.val < 100000 then A2 m c (ix1 ⟨p.val, hp⟩) else 4294967295#32 := by
  dsimp only [ent3, atTc]; unfold V18
  rw [s34_v53, shapeCast_a_1a_apply]; unfold V17; rw [s33_v52]
  refine (Cert.LibRead.pad_flat_apply _ _ pads_S100000_S102400_024000 h_S_ p).trans ?_
  vpass main_arg2
  unfold V16
  rw [s32_c15]
  rfl

end Cert.KernelIdeal.Val

end
-- ==== Proof.Val.HostRead.lean ====
import proofs.«415774_j67989332296056_2_alg».proof.Proof.Fr.Chain
import proofs.«415774_j67989332296056_2_alg».proof.Proof.LibRead
import proofs.«415774_j67989332296056_2_alg».proof.Proof.Views
import proofs.«415774_j67989332296056_2_alg».proof.Proof.PreDecode
import proofs.«415774_j67989332296056_2_alg».proof.Proof.Val.HRpass
import proofs.«415774_j67989332296056_2_alg».proof.Proof.Val.HRsmall
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 1044

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (c : Dev nD)

abbrev up (v : Fin 100000) : Fin 102400 := ⟨v.val, by have := v.isLt; omega⟩

section Layout
variable {α : Type}

theorem col_apply {n : Nat} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) :=
  broadcastInDim_apply ![0] h v (ix2 e u) (ix1 e) (fun a => match a with
    | ⟨0, _⟩ => by
      show e.val = if n = 1 then 0 else e.val
      have := e.isLt
      split <;> omega)

theorem colCast_apply {n : Nat} (h : (⟨1, ![n]⟩ : Shape).ShapeCasts ⟨2, ![n, 1]⟩)
    (v : (⟨1, ![n]⟩ : Shape).Idx → α) (e : Fin n) (u : Fin 1) :
    shapeCast ⟨2, ![n, 1]⟩ v h (ix2 e u) = v (ix1 e) :=
  shapeCast_apply v h _ _ (by
    have hu : u.val = 0 := by omega
    rw [Shape.rowMajor_val_two, Shape.rowMajor_val_one]
    show e.val = e.val * 1 + u.val
    omega)

/-- Rows padded from 100000 to 102400 with zero rows: the array on a node's row, zero after. -/
theorem padZero_apply {Fo : Nat} (hpd : (⟨2, ![100000, Fo]⟩ : Shape).Pads ![0, 0] ![2400, 0] ![0, 0] ⟨2, ![102400, Fo]⟩)
    (x : FVec Ideal ⟨2, ![100000, Fo]⟩ .f32) (p : Fin 102400) (k : Fin Fo) :
    pad ⟨2, ![102400, Fo]⟩ ![0, 0] ![2400, 0] ![0, 0] x (constant (F := Ideal) S_ .f32 0x00000000#32) hpd h_S_ (ix2 p k)
      = if hp : p.val < 100000 then x (ix2 ⟨p.val, hp⟩ k) else 0 := by
  rw [Cert.LibRead.pad_rows_apply]
  by_cases hp : p.val < 100000
  · rw [dif_pos hp, dif_pos hp]
  · rw [dif_neg hp, dif_neg hp, constant_apply, Ideal.ofBits_zero_f32]

end Layout

def row0 (a1 : IVec S2x1600000 32) : IVec S1600000 32 :=
  shapeCast S1600000 (extractStridedSlice S1x1600000 ![0, 0] a1 slices_S2x1600000_S1x1600000_0_0) shapeCasts_S1x1600000_S1600000

def row1 (a1 : IVec S2x1600000 32) : IVec S1600000 32 :=
  shapeCast S1600000 (extractStridedSlice S1x1600000 ![1, 0] a1 slices_S2x1600000_S1x1600000_1_0) shapeCasts_S1x1600000_S1600000

theorem row0_apply (a1 : IVec S2x1600000 32) (e : Fin 1600000) : row0 a1 (ix1 e) = a1 (ix2 (0 : Fin 2) e) :=
  Cert.PreDecode.row0_apply a1 _ _ e

theorem row1_apply (a1 : IVec S2x1600000 32) (e : Fin 1600000) : row1 a1 (ix1 e) = a1 (ix2 (1 : Fin 2) e) :=
  (shapeCast_1a_a_apply _ _ e).trans (slice2_axis0_apply 1 a1 _ (0 : Fin 1) e (1 : Fin 2) rfl)

def dstCol (r1 : IVec S1600000 32) : IVec S1600000x1 32 :=
  broadcastInDim S1600000x1 ![0] bcast_S1600000_S1600000x1_0 r1

theorem dstCol_apply (a1 : IVec S2x1600000 32) (e : Fin 1600000) :
    dstCol (row1 a1) (ix2 e (0 : Fin 1)) = a1 (ix2 (1 : Fin 2) e) := by
  unfold dstCol; rw [col_apply, row1_apply]

def srcCol (r0 : IVec S1600000 32) : IVec S1600000x1 32 :=
  broadcastInDim S1600000x1 ![0] bcast_S1600000_S1600000x1_0
    (select (cmpi .slt r0 (broadcastInDim S1600000 ![] bcast_S_S1600000 (constantI S_ 32 0#32)))
      (addi r0 (broadcastInDim S1600000 ![] bcast_S_S1600000 (constantI S_ 32 102400#32))) r0)

/-- Sources are nodes, hence not negative: the select keeps the word itself. -/
theorem srcCol_apply (a1 : IVec S2x1600000 32) (h : Cert.Views.SrcOK a1) (e : Fin 1600000) :
    srcCol (row0 a1) (ix2 e (0 : Fin 1)) = a1 (ix2 (0 : Fin 2) e) := by
  unfold srcCol
  rw [col_apply]
  show Scalar.select (IntOp.cmpi .slt (row0 a1 (ix1 e)) (broadcastInDim S1600000 ![] bcast_S_S1600000 (constantI S_ 32 0#32) (ix1 e))) _ (row0 a1 (ix1 e)) = _
  rw [broadcastInDim_scalar_apply, row0_apply]
  have hb : ¬ IntOp.cmpi .slt (a1 (ix2 (0 : Fin 2) e)) (constantI S_ 32 0#32 ix0) = 1#1 := by
    rw [IntOp.cmpi_slt]
    show ¬ (a1 (ix2 (0 : Fin 2) e)).toInt < (0#32 : BitVec 32).toInt
    rw [show (0#32 : BitVec 32).toInt = 0 from by decide]
    have := (h e).1
    unfold Cert.Views.srcZ at this
    omega
  rw [eq_zero_of_ne_one hb, select_zero]

theorem ofBits_one_f32 : Ideal.ofBits .f32 0x3F800000#32 = 1 := Ideal.ofBits_one_f32

def scaleVec (a1 : IVec S2x1600000 32) : FVec Ideal S100000 .f32 :=
  Host.rsqrt (addf (Host.scatterAdd scatter_S100000_S1600000x1_S1600000_n_0_0_1
      (broadcastInDim S100000 ![] bcast_S_S100000 (constant S_ .f32 0x00000000#32))
      (dstCol (row1 a1))
      (broadcastInDim S1600000 ![] bcast_S_S1600000 (constant S_ .f32 0x3F800000#32)))
    (broadcastInDim S100000 ![] bcast_S_S100000 (constant S_ .f32 0x3F800000#32)))

theorem hostRsqrt_apply {s : Shape} (x : FVec Ideal s .f32) (i : s.Idx) : Host.rsqrt x i = Ideal.rsqrt (x i) := rfl

theorem scaleVec_apply (a1 : IVec S2x1600000 32) (v : Fin 100000) : scaleVec a1 (ix1 v) = Cert.Views.scaleOf a1 v := by
  rw [scaleVec, hostRsqrt_apply, addf_apply, show scatter_S100000_S1600000x1_S1600000_n_0_0_1
      = Cert.LibRead.scatterFlatDims 100000 1600000 scatter_S100000_S1600000x1_S1600000_n_0_0_1_wf from rfl,
    Cert.LibRead.scatterAdd_flat_apply scatter_S100000_S1600000x1_S1600000_n_0_0_1_wf, broadcastInDim_scalar_apply,
    broadcastInDim_scalar_apply, constant_apply, constant_apply, Ideal.ofBits_zero_f32, ofBits_one_f32]
  unfold Cert.Views.scaleOf Cert.Spec.into Cert.Views.dstZ
  refine congrArg (fun t : EReal => Ideal.rsqrt ((0 + t) + 1)) ?_
  refine Finset.sum_congr (Finset.filter_congr fun e _ => by rw [dstCol_apply]) fun e _ => ?_
  rw [broadcastInDim_scalar_apply, constant_apply, ofBits_one_f32]

section Scat
variable {Fo : Nat}
  (wfS : ScatterDims.WF ⟨2, ![100000, Fo]⟩ ⟨2, ![1600000, 1]⟩ ⟨2, ![1600000, Fo]⟩ [1] [0] [0] 1)
  (wfG : GatherDims.WF ⟨2, ![102400, Fo]⟩ ⟨2, ![1600000, 1]⟩ ⟨2, ![1600000, Fo]⟩ [1] [0] [] [0] [] 1 ![1, Fo])
  (hb : S_.BroadcastsInDim ⟨2, ![100000, Fo]⟩ ![])

/-- The rows of `L` gathered at the sources `r0` and added up per destination `r1`. -/
def scat (r0 r1 : IVec S1600000 32) (L : FVec Ideal ⟨2, ![102400, Fo]⟩ .f32) : FVec Ideal ⟨2, ![100000, Fo]⟩ .f32 :=
  Host.scatterAdd (F := Ideal) (Cert.LibRead.scatterRowsDims 100000 1600000 Fo wfS)
    (broadcastInDim ⟨2, ![100000, Fo]⟩ ![] hb (constant S_ .f32 0x00000000#32)) (dstCol r1)
    (Host.gather (Cert.LibRead.gatherRowsDims 102400 1600000 Fo wfG) L (srcCol r0))

theorem scat_apply (a1 : IVec S2x1600000 32) (h : Cert.Views.SrcOK a1) (L : FVec Ideal ⟨2, ![102400, Fo]⟩ .f32)
    (v : Fin 100000) (k : Fin Fo) :
    scat wfS wfG hb (row0 a1) (row1 a1) L (ix2 v k)
      = 0 + ∑ e ∈ Cert.Spec.into (Cert.Views.dstZ a1) v, L (ix2 (up (Cert.Views.srcOf a1 h e)) k) := by
  unfold scat
  rw [Cert.LibRead.scatterAdd_rows_apply wfS, broadcastInDim_scalar_apply, constant_apply, Ideal.ofBits_zero_f32]
  unfold Cert.Spec.into Cert.Views.dstZ
  refine congrArg (fun t : EReal => 0 + t) ?_
  refine Finset.sum_congr (Finset.filter_congr fun e _ => by rw [dstCol_apply]) fun e _ => ?_
  have hs := srcCol_apply a1 h e
  have h0 : 0 ≤ (srcCol (row0 a1) (ix2 e (0 : Fin 1))).toInt := by rw [hs]; exact (h e).1
  have h1 : (srcCol (row0 a1) (ix2 e (0 : Fin 1))).toInt < ((102400 : Nat) : ℤ) := by
    rw [hs]; have := (h e).2; unfold Cert.Views.srcZ at this; omega
  rw [Cert.LibRead.gather_rows_apply_of_inRange wfG L _ e k h0 h1]
  refine congrArg (fun r : Fin 102400 => L (ix2 r k)) (Fin.ext ?_)
  show (srcCol (row0 a1) (ix2 e (0 : Fin 1))).toInt.toNat = (a1 (ix2 (0 : Fin 2) e)).toInt.toNat
  rw [hs]

theorem padScat_apply (hpd : (⟨2, ![100000, Fo]⟩ : Shape).Pads ![0, 0] ![2400, 0] ![0, 0] ⟨2, ![102400, Fo]⟩)
    (a1 : IVec S2x1600000 32) (h : Cert.Views.SrcOK a1) (L : FVec Ideal ⟨2, ![102400, Fo]⟩ .f32)
    (p : Fin 102400) (k : Fin Fo) :
    pad ⟨2, ![102400, Fo]⟩ ![0, 0] ![2400, 0] ![0, 0] (scat wfS wfG hb (row0 a1) (row1 a1) L)
        (constant (F := Ideal) S_ .f32 0x00000000#32) hpd h_S_ (ix2 p k)
      = if hq : p.val < 100000 then
          0 + ∑ e ∈ Cert.Spec.into (Cert.Views.dstZ a1) ⟨p.val, hq⟩, L (ix2 (up (Cert.Views.srcOf a1 h e)) k)
        else 0 :=
  (padZero_apply hpd _ p k).trans (dite_congr rfl (fun _ => scat_apply wfS wfG hb a1 h L _ k) fun _ => rfl)

end Scat

section Stretches
variable (W : Valuation τ sig (Elt Ideal))

theorem s0_v1 : StableHlo.after (hostOps0 (F := Ideal)) W (Proc.devRef .tc main_v1) = row0 (W (Proc.devRef .tc main_arg1)) := by
  after_results <;> rfl
theorem s0_v3 : StableHlo.after (hostOps0 (F := Ideal)) W (Proc.devRef .tc main_v3) = row1 (W (Proc.devRef .tc main_arg1)) := by
  after_results <;> rfl
theorem s0_v11 : StableHlo.after (hostOps0 (F := Ideal)) W (Proc.devRef .tc main_v11)
    = shapeCast S100000x1 (scaleVec (W (Proc.devRef .tc main_arg1))) shapeCasts_S100000_S100000x1 := by
  after_results <;> rfl
theorem s0_cst2 : StableHlo.after (hostOps0 (F := Ideal)) W (Proc.devRef .tc main_cst_2) = constant (F := Ideal) S_ .f32 0x00000000#32 := by
  after_results <;> rfl
theorem s01_v12 : StableHlo.after (hostOps0_1 (F := Ideal)) W (Proc.devRef .tc main_v12)
    = pad S102400x1 ![0, 0] ![2400, 0] ![0, 0] (W (Proc.devRef .tc main_v11)) (W (Proc.devRef .tc main_cst_2))
        pads_S100000x1_S102400x1_024000_000 h_S_ := by
  after_results <;> rfl
theorem s02_cst3 : StableHlo.after (hostOps0_2 (F := Ideal)) W (Proc.devRef .tc main_cst_3) = constant (F := Ideal) S_ .f32 0x00000000#32 := by
  after_results <;> rfl
theorem s03_v13 : StableHlo.after (hostOps0_3 (F := Ideal)) W (Proc.devRef .tc main_v13)
    = pad S102400x128 ![0, 0] ![2400, 0] ![0, 0] (W (Proc.devRef .tc main_arg0)) (W (Proc.devRef .tc main_cst_3))
        pads_S100000x128_S102400x128_024000_000 h_S_ := by
  after_results <;> rfl

theorem s1_v24 : StableHlo.after (hostOps1 (F := Ideal)) W (Proc.devRef .tc main_v24)
    = scat scatter_S100000x32_S1600000x1_S1600000x32_1_0_0_1_wf gather_S102400x32_S1600000x1_S1600000x32_1_0_n_n_0_1_132_wf
        bcast_S_S100000x32 (W (Proc.devRef .tc main_v1)) (W (Proc.devRef .tc main_v3)) (W (Proc.devRef .tc main_v14)) := by
  after_results <;> rfl
theorem s1_cst6 : StableHlo.after (hostOps1 (F := Ideal)) W (Proc.devRef .tc main_cst_6) = constant (F := Ideal) S_ .f32 0x00000000#32 := by
  after_results <;> rfl
theorem s11_v25 : StableHlo.after (hostOps1_1 (F := Ideal)) W (Proc.devRef .tc main_v25)
    = pad S102400x32 ![0, 0] ![2400, 0] ![0, 0] (W (Proc.devRef .tc main_v24)) (W (Proc.devRef .tc main_cst_6))
        pads_S100000x32_S102400x32_024000_000 h_S_ := by
  after_results <;> rfl

theorem s2_v37 : StableHlo.after (hostOps2 (F := Ideal)) W (Proc.devRef .tc main_v37)
    = scat scatter_S100000x64_S1600000x1_S1600000x64_1_0_0_1_wf gather_S102400x64_S1600000x1_S1600000x64_1_0_n_n_0_1_164_wf
        bcast_S_S100000x64 (W (Proc.devRef .tc main_v1)) (W (Proc.devRef .tc main_v3)) (W (Proc.devRef .tc main_v27)) := by
  after_results <;> rfl
theorem s2_cst10 : StableHlo.after (hostOps2 (F := Ideal)) W (Proc.devRef .tc main_cst_10) = constant (F := Ideal) S_ .f32 0x00000000#32 := by
  after_results <;> rfl
theorem s21_v38 : StableHlo.after (hostOps2_1 (F := Ideal)) W (Proc.devRef .tc main_v38)
    = pad S102400x64 ![0, 0] ![2400, 0] ![0, 0] (W (Proc.devRef .tc main_v37)) (W (Proc.devRef .tc main_cst_10))
        pads_S100000x64_S102400x64_024000_000 h_S_ := by
  after_results <;> rfl

set_option maxHeartbeats 400000 in
theorem s3_v50 : StableHlo.after (hostOps3 (F := Ideal)) W (Proc.devRef .tc main_v50)
    = scat scatter_S100000x128_S1600000x1_S1600000x128_1_0_0_1_wf gather_S102400x128_S1600000x1_S1600000x128_1_0_n_n_0_1_1128_wf
        bcast_S_S100000x128 (W (Proc.devRef .tc main_v1)) (W (Proc.devRef .tc main_v3)) (W (Proc.devRef .tc main_v40)) := by
  after_results <;> rfl
theorem s3_cst14 : StableHlo.after (hostOps3 (F := Ideal)) W (Proc.devRef .tc main_cst_14) = constant (F := Ideal) S_ .f32 0x00000000#32 := by
  after_results <;> rfl
theorem s31_v51 : StableHlo.after (hostOps3_1 (F := Ideal)) W (Proc.devRef .tc main_v51)
    = pad S102400x128 ![0, 0] ![2400, 0] ![0, 0] (W (Proc.devRef .tc main_v50)) (W (Proc.devRef .tc main_cst_14))
        pads_S100000x128_S102400x128_024000_000 h_S_ := by
  after_results <;> rfl

end Stretches

abbrev L0 : FVec Ideal S102400x32 .f32 := left0 m c
abbrev L1 : FVec Ideal S102400x64 .f32 := left1 m c
abbrev L2 : FVec Ideal S102400x128 .f32 := left2 m c

abbrev P25 : FVec Ideal S102400x32 .f32 := ent1 m c main_v25
abbrev P38 : FVec Ideal S102400x64 .f32 := ent2 m c main_v38
abbrev P51 : FVec Ideal S102400x128 .f32 := ent3 m c main_v51

theorem V1_v1 : V1 m c (Proc.devRef .tc main_v1) = row0 (A1 m c) := s0_v1 (V0 m c)
theorem V1_v3 : V1 m c (Proc.devRef .tc main_v3) = row1 (A1 m c) := s0_v3 (V0 m c)

theorem V2_v12_apply (p : Fin 102400) : V2 m c (Proc.devRef .tc main_v12) (ix2 p (0 : Fin 1))
    = if hp : p.val < 100000 then Cert.Views.scaleOf (A1 m c) ⟨p.val, hp⟩ else 0 := by
  unfold V2 V1
  rw [s01_v12, s0_v11, s0_cst2, padZero_apply]
  exact dite_congr rfl (fun _ => (colCast_apply _ _ _ _).trans (scaleVec_apply _ _)) fun _ => rfl

theorem scaleP0 (p : Fin 102400) : ent0 m c main_v12 (ix2 p (0 : Fin 1))
    = if hp : p.val < 100000 then Cert.Views.scaleOf (A1 m c) ⟨p.val, hp⟩ else 0 := by
  vpass main_v12; exact V2_v12_apply m c p
theorem scaleP1 (p : Fin 102400) : ent1 m c main_v12 (ix2 p (0 : Fin 1))
    = if hp : p.val < 100000 then Cert.Views.scaleOf (A1 m c) ⟨p.val, hp⟩ else 0 := by
  vpass main_v12; exact V2_v12_apply m c p
theorem scaleP2 (p : Fin 102400) : ent2 m c main_v12 (ix2 p (0 : Fin 1))
    = if hp : p.val < 100000 then Cert.Views.scaleOf (A1 m c) ⟨p.val, hp⟩ else 0 := by
  vpass main_v12; exact V2_v12_apply m c p
theorem scaleP3 (p : Fin 102400) : ent3 m c main_v12 (ix2 p (0 : Fin 1))
    = if hp : p.val < 100000 then Cert.Views.scaleOf (A1 m c) ⟨p.val, hp⟩ else 0 := by
  vpass main_v12; exact V2_v12_apply m c p

theorem xP (p : Fin 102400) (k : Fin 128) : ent0 m c main_v13 (ix2 p k)
    = if hp : p.val < 100000 then A0 m c (ix2 ⟨p.val, hp⟩ k) else 0 := by
  dsimp only [ent0, atTc]; unfold V4
  rw [s03_v13]; vpass main_arg0; unfold V3
  rw [s02_cst3, padZero_apply] <;> rfl

theorem sc1 (h : Cert.Views.SrcOK (A1 m c)) (p : Fin 102400) (k : Fin 32) : P25 m c (ix2 p k)
    = if hp : p.val < 100000 then
        0 + ∑ e ∈ Cert.Spec.into (Cert.Views.dstZ (A1 m c)) ⟨p.val, hp⟩, L0 m c (ix2 (up (Cert.Views.srcOf (A1 m c) h e)) k)
      else 0 := by
  unfold P25; vpass main_v25; unfold V7 V6
  rw [s11_v25, s1_v24, s1_cst6]; vpass main_v1; vpass main_v3
  rw [V1_v1, V1_v3, V5_v14]
  exact padScat_apply _ _ _ _ (A1 m c) h (L0 m c) p k
theorem sc2 (h : Cert.Views.SrcOK (A1 m c)) (p : Fin 102400) (k : Fin 64) : P38 m c (ix2 p k)
    = if hp : p.val < 100000 then
        0 + ∑ e ∈ Cert.Spec.into (Cert.Views.dstZ (A1 m c)) ⟨p.val, hp⟩, L1 m c (ix2 (up (Cert.Views.srcOf (A1 m c) h e)) k)
      else 0 := by
  unfold P38; vpass main_v38; unfold V11 V10
  rw [s21_v38, s2_v37, s2_cst10]; vpass main_v1; vpass main_v3
  rw [V1_v1, V1_v3, V9_v27]
  exact padScat_apply _ _ _ _ (A1 m c) h (L1 m c) p k
theorem sc3 (h : Cert.Views.SrcOK (A1 m c)) (p : Fin 102400) (k : Fin 128) : P51 m c (ix2 p k)
    = if hp : p.val < 100000 then
        0 + ∑ e ∈ Cert.Spec.into (Cert.Views.dstZ (A1 m c)) ⟨p.val, hp⟩, L2 m c (ix2 (up (Cert.Views.srcOf (A1 m c) h e)) k)
      else 0 := by
  unfold P51; vpass main_v51; unfold V15 V14
  rw [s31_v51, s3_v50, s3_cst14]; vpass main_v1; vpass main_v3
  rw [V1_v1, V1_v3, V13_v40]
  exact padScat_apply _ _ _ _ (A1 m c) h (L2 m c) p k

end Cert.KernelIdeal.Val

end
-- ==== Proof.Val.Reg0Val.lean ====
import proofs.«415774_j67989332296056_2_alg».proof.Proof.Fr.Reg0
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem bcastCol0_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Into a zero accumulator the block product is the plain product: at (p, q) the sum over the contracted axis. -/
theorem matmul0_apply (a : FVec Ideal S2560x128 .bf16) (b : FVec Ideal S128x32 .bf16) (p : Fin 2560) (q : Fin 32) :
    matmul dot_S2560x128_S128x32_S2560x32_1_0_0_1_n_n none a b (constant (F := Ideal) S2560x32 .f32 0x00000000#32) (ix2 p q)
      = ∑ k : Fin 128, a (ix2 p k) * b (ix2 k q) :=
  (congrFun (matmul_zero_eq_dotGeneral _ none a b) _).trans (StackMember.dotGeneral_plain_apply none a b p q)

theorem pay0_apply (x0 : Vec Ideal S2560x128 .f32) (x1 : Vec Ideal S128x32 .f32) (x2 : Vec Ideal S2560x1 .f32) (p : Fin 2560) (q : Fin 32) :
    k0_pay1 x0 x1 x2 (ix2 p q) = (∑ k : Fin 128, x0 (ix2 p k) * x1 (ix2 k q)) * x2 (ix2 p (0 : Fin 1)) := by
  unfold k0_pay1
  simp only [shapeCast_self]
  rw [mulf_apply, bcastCol0_apply, matmul0_apply]
  rfl

def G0 (A0 : S102400x128.Idx → EReal) (A1 : S128x32.Idx → EReal) (A2 : S102400x1.Idx → EReal) : S102400x32.Idx → EReal :=
  fun i => (∑ k : Fin 128, A0 (ix2 (⟨(i 0).val, (i 0).isLt⟩ : Fin 102400) k) * A1 (ix2 k (⟨(i 1).val, (i 1).isLt⟩ : Fin 32)))
    * A2 (ix2 (⟨(i 0).val, (i 0).isLt⟩ : Fin 102400) (0 : Fin 1))

theorem G0_apply (A0 : S102400x128.Idx → EReal) (A1 : S128x32.Idx → EReal) (A2 : S102400x1.Idx → EReal) (p : Fin 102400) (q : Fin 32) :
    G0 A0 A1 A2 (ix2 p q) = (∑ k : Fin 128, A0 (ix2 p k) * A1 (ix2 k q)) * A2 (ix2 p (0 : Fin 1)) := rfl

theorem point0 (A0 : S102400x128.Idx → EReal) (A1 : S128x32.Idx → EReal) (A2 : S102400x1.Idx → EReal)
    (x0 : Vec Ideal S2560x128 .f32) (x1 : Vec Ideal S128x32 .f32) (x2 : Vec Ideal S2560x1 .f32)
    (p : Fin 2560) (q : Fin 32) (P : Fin 102400)
    (h0 : ∀ k : Fin 128, x0 (ix2 p k) = A0 (ix2 P k))
    (h1 : ∀ k : Fin 128, x1 (ix2 k q) = A1 (ix2 k q))
    (h2 : x2 (ix2 p (0 : Fin 1)) = A2 (ix2 P (0 : Fin 1))) :
    k0_pay1 x0 x1 x2 (ix2 p q) = G0 A0 A1 A2 (ix2 P q) := by
  rw [pay0_apply, G0_apply, h2]
  congr 1
  exact Finset.sum_congr rfl fun k _ => by rw [h0 k, h1 k]

theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem flushed0_eq (c : Dev nD) (t : Fin cfg0.N) :
    (dat0 V c).flushed 3 t = ((cfg0.win 3).blk t).view.read (Elt Ideal) (G0 (V c main_v13) (V c main_arg3) (V c main_v12)) := by
  show (cfg0.win 3).cut (grid0.coords t) ((dat0 V c).after 3 t) = _
  rw [after0_3, out0_3_eq]
  obtain ⟨e00, e01, e10, e11, e20, e21, e30, e31⟩ := blockIdx0 t
  have ht : t.val < 40 := t.isLt
  funext j
  have hj0 : (j 0).val < 2560 := (j 0).isLt
  have hj1 : (j 1).val < 32 := (j 1).isLt
  have hP : t.val * 2560 + (j 0).val < 102400 := by omega
  refine Eq.trans (b := k0_pay1 (iblk0 V c 0 t) (iblk0 V c 1 t) (iblk0 V c 2 t) (ix2 (⟨(j 0).val, hj0⟩ : Fin 2560) (⟨(j 1).val, hj1⟩ : Fin 32))) ?_ ?_
  · show k0_pay1 (iblk0 V c 0 t) (iblk0 V c 1 t) (iblk0 V c 2 t) ((cfg0.win 3).xinj (grid0.coords t) j) = _
    refine congrArg _ (funext fun a => ?_)
    match a with
    | ⟨0, _⟩ => rfl
    | ⟨1, _⟩ => rfl
  refine (point0 (V c main_v13) (V c main_arg3) (V c main_v12) _ _ _ _ _ (⟨t.val * 2560 + (j 0).val, hP⟩ : Fin 102400) ?_ ?_ ?_).trans ?_
  · exact fun k => congrArg _ (Shape.idx_ext₂ ((win0_0.rect_emb_val t _ (0 : Fin 2)).trans (by rw [e00]; rfl)) (win0_0.rect_emb_val_of_index_zero t (1 : Fin 2) e01 _))
  · exact fun k => congrArg _ (Shape.idx_ext₂ (win0_1.rect_emb_val_of_index_zero t (0 : Fin 2) e10 _) (win0_1.rect_emb_val_of_index_zero t (1 : Fin 2) e11 _))
  · exact congrArg _ (Shape.idx_ext₂ ((win0_2.rect_emb_val t _ (0 : Fin 2)).trans (by rw [e20]; rfl)) (win0_2.rect_emb_val_of_index_zero t (1 : Fin 2) e21 _))
  · exact congrArg _ (Shape.idx_ext₂ ((win0_3.rect_emb_val t j (0 : Fin 2)).trans (by rw [e30]; rfl)).symm (win0_3.rect_emb_val_of_index_zero t (1 : Fin 2) e31 j).symm)

theorem cover0 (i : S102400x32.Idx) : ∃ t : Fin cfg0.N, (cfg0.win 3).flush t = true ∧ i ∈ ((cfg0.win 3).blk t).view.set := by
  have hi0 : (i 0).val < 102400 := (i 0).isLt
  have hlt : (i 0).val / 2560 < cfg0.N := by rw [show cfg0.N = 40 from N_0]; omega
  obtain ⟨-, -, -, -, -, -, e30, e31⟩ := blockIdx0 ⟨(i 0).val / 2560, hlt⟩
  have e : ((cfg0.win 3).blk ⟨(i 0).val / 2560, hlt⟩).view.emb (ix2 (⟨(i 0).val % 2560, Nat.mod_lt _ (by decide)⟩ : Fin 2560) (i 1)) = i :=
    Shape.idx_ext₂ ((win0_3.rect_emb_val _ _ (0 : Fin 2)).trans (by rw [e30]; exact Nat.div_add_mod' _ _))
      (win0_3.rect_emb_val_of_index_zero _ (1 : Fin 2) e31 _)
  exact ⟨_, flush0_3 _, e ▸ View.emb_mem_set _ _⟩

theorem arr0_eq (c : Dev nD) : (dat0 V c).arrAt 3 cfg0.N = G0 (V c main_v13) (V c main_arg3) (V c main_v12) :=
  (dat0 V c).arrAt_eq_of_cover 3 (G0 (V c main_v13) (V c main_arg3) (V c main_v12)) (fun t _ => flushed0_eq V c t) cover0

local infixl:70 " ⬝ " => (HMul.hMul : EReal → EReal → EReal)

theorem arr0_apply (c : Dev nD) (p : Fin 102400) (q : Fin 32) :
    (Fr.dat0 V c).arrAt 3 cfg0.N (ix2 p q)
      = (∑ k : Fin 128, V c main_v13 (ix2 p k) ⬝ V c main_arg3 (ix2 k q)) ⬝ V c main_v12 (ix2 p (0 : Fin 1)) := by
  rw [arr0_eq]
  rfl

end Cert.KernelIdeal.Val

end
-- ==== Proof.Val.Reg1Val.lean ====
import proofs.«415774_j67989332296056_2_alg».proof.Proof.Fr.Reg1
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem bcastCol_r1_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Into a zero accumulator the block product is the plain product: at (p, q) the sum over the contracted axis. -/
theorem matmul_r1_apply (a : FVec Ideal S2560x32 .bf16) (b : FVec Ideal S32x64 .bf16) (p : Fin 2560) (q : Fin 64) :
    matmul dot_S2560x32_S32x64_S2560x64_1_0_0_1_n_n none a b (constant (F := Ideal) S2560x64 .f32 0x00000000#32) (ix2 p q)
      = ∑ k : Fin 32, a (ix2 p k) * b (ix2 k q) :=
  (congrFun (matmul_zero_eq_dotGeneral _ none a b) _).trans (StackMember.dotGeneral_plain_apply none a b p q)

theorem act_r1_apply (s : Vec Ideal S2560x1 .f32) (x0 x1 : Vec Ideal S2560x32 .f32) (b : Vec Ideal S1x32 .f32) (p : Fin 2560) (k : Fin 32) :
    maximumf (addf (mulf (broadcastTo S2560x32 s broadcasts_S2560x1_S2560x32) (addf x0 x1)) (broadcastTo S2560x32 b broadcasts_S1x32_S2560x32))
        (broadcast S2560x32 (Scalar.ofBits (F := Ideal) .f32 0x00000000#32)) (ix2 p k)
      = max (s (ix2 p (0 : Fin 1)) * (x0 (ix2 p k) + x1 (ix2 p k)) + b (ix2 (0 : Fin 1) k)) 0 := by
  rw [maximumf_apply, addf_apply, mulf_apply, addf_apply, bcastCol_r1_apply, broadcastTo_1b_ab_apply, broadcast_apply]
  show max _ (Ideal.ofBits .f32 0x00000000#32) = _
  rw [Ideal.ofBits_zero_f32]

theorem pay_r1_apply (s : Vec Ideal S2560x1 .f32) (x0 x1 : Vec Ideal S2560x32 .f32) (b : Vec Ideal S1x32 .f32) (w : Vec Ideal S32x64 .f32)
    (s' : Vec Ideal S2560x1 .f32) (p : Fin 2560) (q : Fin 64) :
    k1_pay1 s x0 x1 b w s' (ix2 p q)
      = (∑ k : Fin 32, max (s (ix2 p (0 : Fin 1)) * (x0 (ix2 p k) + x1 (ix2 p k)) + b (ix2 (0 : Fin 1) k)) 0 * w (ix2 k q)) * s' (ix2 p (0 : Fin 1)) := by
  unfold k1_pay1
  simp only [shapeCast_self]
  rw [mulf_apply, bcastCol_r1_apply, matmul_r1_apply]
  refine congrArg (· * s' (ix2 p (0 : Fin 1))) (Finset.sum_congr rfl fun k _ => ?_)
  rw [truncf_apply, truncf_apply, act_r1_apply]

def G_r1 (S : S102400x1.Idx → EReal) (A0 A1 : S102400x32.Idx → EReal) (B : S1x32.Idx → EReal) (W : S32x64.Idx → EReal) : S102400x64.Idx → EReal :=
  fun i => (∑ k : Fin 32, max (S (ix2 (⟨(i 0).val, (i 0).isLt⟩ : Fin 102400) (0 : Fin 1))
        * (A0 (ix2 (⟨(i 0).val, (i 0).isLt⟩ : Fin 102400) k) + A1 (ix2 (⟨(i 0).val, (i 0).isLt⟩ : Fin 102400) k)) + B (ix2 (0 : Fin 1) k)) 0
      * W (ix2 k (⟨(i 1).val, (i 1).isLt⟩ : Fin 64)))
    * S (ix2 (⟨(i 0).val, (i 0).isLt⟩ : Fin 102400) (0 : Fin 1))

theorem G_r1_apply (S : S102400x1.Idx → EReal) (A0 A1 : S102400x32.Idx → EReal) (B : S1x32.Idx → EReal) (W : S32x64.Idx → EReal) (p : Fin 102400) (q : Fin 64) :
    G_r1 S A0 A1 B W (ix2 p q)
      = (∑ k : Fin 32, max (S (ix2 p (0 : Fin 1)) * (A0 (ix2 p k) + A1 (ix2 p k)) + B (ix2 (0 : Fin 1) k)) 0 * W (ix2 k q)) * S (ix2 p (0 : Fin 1)) := rfl

theorem point_r1 (S : S102400x1.Idx → EReal) (A0 A1 : S102400x32.Idx → EReal) (B : S1x32.Idx → EReal) (W : S32x64.Idx → EReal)
    (s : Vec Ideal S2560x1 .f32) (x0 x1 : Vec Ideal S2560x32 .f32) (b : Vec Ideal S1x32 .f32) (w : Vec Ideal S32x64 .f32)
    (p : Fin 2560) (q : Fin 64) (P : Fin 102400)
    (hs : s (ix2 p (0 : Fin 1)) = S (ix2 P (0 : Fin 1)))
    (h0 : ∀ k : Fin 32, x0 (ix2 p k) = A0 (ix2 P k))
    (h1 : ∀ k : Fin 32, x1 (ix2 p k) = A1 (ix2 P k))
    (hb : ∀ k : Fin 32, b (ix2 (0 : Fin 1) k) = B (ix2 (0 : Fin 1) k))
    (hw : ∀ k : Fin 32, w (ix2 k q) = W (ix2 k q)) :
    k1_pay1 s x0 x1 b w s (ix2 p q) = G_r1 S A0 A1 B W (ix2 P q) := by
  rw [pay_r1_apply, G_r1_apply, hs]
  refine congrArg (· * S (ix2 P (0 : Fin 1))) (Finset.sum_congr rfl fun k _ => ?_)
  rw [h0 k, h1 k, hb k, hw k]

theorem blockIdx_r1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed_r1_eq (c : Dev nD) (t : Fin cfg1.N) :
    (dat1 V c).flushed 5 t = ((cfg1.win 5).blk t).view.read (Elt Ideal)
      (G_r1 (V c main_v12) (V c main_v25) (V c main_v14) (V c main_v26) (V c main_arg5)) := by
  show (cfg1.win 5).cut (grid1.coords t) ((dat1 V c).after 5 t) = _
  rw [after1_5, out1_5_eq]
  obtain ⟨e00, e01, e10, e11, e20, e21, e30, e31, e40, e41, e50, e51⟩ := blockIdx_r1 t
  have ht : t.val < 40 := t.isLt
  funext j
  have hj0 : (j 0).val < 2560 := (j 0).isLt
  have hj1 : (j 1).val < 64 := (j 1).isLt
  have hP : t.val * 2560 + (j 0).val < 102400 := by omega
  refine Eq.trans (b := k1_pay1 (iblk1 V c 2 t) (iblk1 V c 0 t) (iblk1 V c 1 t) (iblk1 V c 3 t) (iblk1 V c 4 t) (iblk1 V c 2 t)
    (ix2 (⟨(j 0).val, hj0⟩ : Fin 2560) (⟨(j 1).val, hj1⟩ : Fin 64))) ?_ ?_
  · show k1_pay1 (iblk1 V c 2 t) (iblk1 V c 0 t) (iblk1 V c 1 t) (iblk1 V c 3 t) (iblk1 V c 4 t) (iblk1 V c 2 t) ((cfg1.win 5).xinj (grid1.coords t) j) = _
    refine congrArg _ (funext fun a => ?_)
    match a with
    | ⟨0, _⟩ => rfl
    | ⟨1, _⟩ => rfl
  refine (point_r1 (V c main_v12) (V c main_v25) (V c main_v14) (V c main_v26) (V c main_arg5) _ _ _ _ _ _ _
    (⟨t.val * 2560 + (j 0).val, hP⟩ : Fin 102400) ?_ ?_ ?_ ?_ ?_).trans ?_
  · exact congrArg _ (Shape.idx_ext₂ ((win1_2.rect_emb_val t _ (0 : Fin 2)).trans (by rw [e20]; rfl)) (win1_2.rect_emb_val_of_index_zero t (1 : Fin 2) e21 _))
  · exact fun k => congrArg _ (Shape.idx_ext₂ ((win1_0.rect_emb_val t _ (0 : Fin 2)).trans (by rw [e00]; rfl)) (win1_0.rect_emb_val_of_index_zero t (1 : Fin 2) e01 _))
  · exact fun k => congrArg _ (Shape.idx_ext₂ ((win1_1.rect_emb_val t _ (0 : Fin 2)).trans (by rw [e10]; rfl)) (win1_1.rect_emb_val_of_index_zero t (1 : Fin 2) e11 _))
  · exact fun k => congrArg _ (Shape.idx_ext₂ (win1_3.rect_emb_val_of_index_zero t (0 : Fin 2) e30 _) (win1_3.rect_emb_val_of_index_zero t (1 : Fin 2) e31 _))
  · exact fun k => congrArg _ (Shape.idx_ext₂ (win1_4.rect_emb_val_of_index_zero t (0 : Fin 2) e40 _) (win1_4.rect_emb_val_of_index_zero t (1 : Fin 2) e41 _))
  · exact congrArg _ (Shape.idx_ext₂ ((win1_5.rect_emb_val t j (0 : Fin 2)).trans (by rw [e50]; rfl)).symm (win1_5.rect_emb_val_of_index_zero t (1 : Fin 2) e51 j).symm)

theorem cover_r1 (i : S102400x64.Idx) : ∃ t : Fin cfg1.N, (cfg1.win 5).flush t = true ∧ i ∈ ((cfg1.win 5).blk t).view.set := by
  have hi0 : (i 0).val < 102400 := (i 0).isLt
  have hlt : (i 0).val / 2560 < cfg1.N := by rw [show cfg1.N = 40 from N_1]; omega
  obtain ⟨-, -, -, -, -, -, -, -, -, -, e50, e51⟩ := blockIdx_r1 ⟨(i 0).val / 2560, hlt⟩
  have e : ((cfg1.win 5).blk ⟨(i 0).val / 2560, hlt⟩).view.emb (ix2 (⟨(i 0).val % 2560, Nat.mod_lt _ (by decide)⟩ : Fin 2560) (i 1)) = i :=
    Shape.idx_ext₂ ((win1_5.rect_emb_val _ _ (0 : Fin 2)).trans (by rw [e50]; exact Nat.div_add_mod' _ _))
      (win1_5.rect_emb_val_of_index_zero _ (1 : Fin 2) e51 _)
  exact ⟨_, flush1_5 _, e ▸ View.emb_mem_set _ _⟩

theorem arr1_eq (c : Dev nD) : (dat1 V c).arrAt 5 cfg1.N = G_r1 (V c main_v12) (V c main_v25) (V c main_v14) (V c main_v26) (V c main_arg5) :=
  (dat1 V c).arrAt_eq_of_cover 5 (G_r1 (V c main_v12) (V c main_v25) (V c main_v14) (V c main_v26) (V c main_arg5)) (fun t _ => flushed_r1_eq V c t) cover_r1

local infixl:70 " ⬝ " => (HMul.hMul : EReal → EReal → EReal)
local infixl:65 " ⊹ " => (HAdd.hAdd : EReal → EReal → EReal)
local notation "emax" => (Max.max : EReal → EReal → EReal)

theorem arr1_apply (c : Dev nD) (p : Fin 102400) (q : Fin 64) :
    (Fr.dat1 V c).arrAt 5 cfg1.N (ix2 p q)
      = (∑ k : Fin 32, emax (V c main_v12 (ix2 p (0 : Fin 1)) ⬝ (V c main_v25 (ix2 p k) ⊹ V c main_v14 (ix2 p k)) ⊹ V c main_v26 (ix2 (0 : Fin 1) k)) 0
          ⬝ V c main_arg5 (ix2 k q)) ⬝ V c main_v12 (ix2 p (0 : Fin 1)) := by
  rw [arr1_eq]
  rfl

end Cert.KernelIdeal.Val

end
-- ==== Proof.Val.Reg2Val.lean ====
import proofs.«415774_j67989332296056_2_alg».proof.Proof.Fr.Reg2
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem bcastCol_r2_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Into a zero accumulator the block product is the plain product: at (p, q) the sum over the contracted axis. -/
theorem matmul_r2_apply (a : FVec Ideal S2560x64 .bf16) (b : FVec Ideal S64x128 .bf16) (p : Fin 2560) (q : Fin 128) :
    matmul dot_S2560x64_S64x128_S2560x128_1_0_0_1_n_n none a b (constant (F := Ideal) S2560x128 .f32 0x00000000#32) (ix2 p q)
      = ∑ k : Fin 64, a (ix2 p k) * b (ix2 k q) :=
  (congrFun (matmul_zero_eq_dotGeneral _ none a b) _).trans (StackMember.dotGeneral_plain_apply none a b p q)

theorem act_r2_apply (s : Vec Ideal S2560x1 .f32) (x0 x1 : Vec Ideal S2560x64 .f32) (b : Vec Ideal S1x64 .f32) (p : Fin 2560) (k : Fin 64) :
    maximumf (addf (mulf (broadcastTo S2560x64 s broadcasts_S2560x1_S2560x64) (addf x0 x1)) (broadcastTo S2560x64 b broadcasts_S1x64_S2560x64))
        (broadcast S2560x64 (Scalar.ofBits (F := Ideal) .f32 0x00000000#32)) (ix2 p k)
      = max (s (ix2 p (0 : Fin 1)) * (x0 (ix2 p k) + x1 (ix2 p k)) + b (ix2 (0 : Fin 1) k)) 0 := by
  rw [maximumf_apply, addf_apply, mulf_apply, addf_apply, bcastCol_r2_apply, broadcastTo_1b_ab_apply, broadcast_apply]
  show max _ (Ideal.ofBits .f32 0x00000000#32) = _
  rw [Ideal.ofBits_zero_f32]

theorem pay_r2_apply (s : Vec Ideal S2560x1 .f32) (x0 x1 : Vec Ideal S2560x64 .f32) (b : Vec Ideal S1x64 .f32) (w : Vec Ideal S64x128 .f32)
    (s' : Vec Ideal S2560x1 .f32) (p : Fin 2560) (q : Fin 128) :
    k2_pay1 s x0 x1 b w s' (ix2 p q)
      = (∑ k : Fin 64, max (s (ix2 p (0 : Fin 1)) * (x0 (ix2 p k) + x1 (ix2 p k)) + b (ix2 (0 : Fin 1) k)) 0 * w (ix2 k q)) * s' (ix2 p (0 : Fin 1)) := by
  unfold k2_pay1
  simp only [shapeCast_self]
  rw [mulf_apply, bcastCol_r2_apply, matmul_r2_apply]
  refine congrArg (· * s' (ix2 p (0 : Fin 1))) (Finset.sum_congr rfl fun k _ => ?_)
  rw [truncf_apply, truncf_apply, act_r2_apply]

def G_r2 (S : S102400x1.Idx → EReal) (A0 A1 : S102400x64.Idx → EReal) (B : S1x64.Idx → EReal) (W : S64x128.Idx → EReal) : S102400x128.Idx → EReal :=
  fun i => (∑ k : Fin 64, max (S (ix2 (⟨(i 0).val, (i 0).isLt⟩ : Fin 102400) (0 : Fin 1))
        * (A0 (ix2 (⟨(i 0).val, (i 0).isLt⟩ : Fin 102400) k) + A1 (ix2 (⟨(i 0).val, (i 0).isLt⟩ : Fin 102400) k)) + B (ix2 (0 : Fin 1) k)) 0
      * W (ix2 k (⟨(i 1).val, (i 1).isLt⟩ : Fin 128)))
    * S (ix2 (⟨(i 0).val, (i 0).isLt⟩ : Fin 102400) (0 : Fin 1))

theorem G_r2_apply (S : S102400x1.Idx → EReal) (A0 A1 : S102400x64.Idx → EReal) (B : S1x64.Idx → EReal) (W : S64x128.Idx → EReal) (p : Fin 102400) (q : Fin 128) :
    G_r2 S A0 A1 B W (ix2 p q)
      = (∑ k : Fin 64, max (S (ix2 p (0 : Fin 1)) * (A0 (ix2 p k) + A1 (ix2 p k)) + B (ix2 (0 : Fin 1) k)) 0 * W (ix2 k q)) * S (ix2 p (0 : Fin 1)) := rfl

theorem point_r2 (S : S102400x1.Idx → EReal) (A0 A1 : S102400x64.Idx → EReal) (B : S1x64.Idx → EReal) (W : S64x128.Idx → EReal)
    (s : Vec Ideal S2560x1 .f32) (x0 x1 : Vec Ideal S2560x64 .f32) (b : Vec Ideal S1x64 .f32) (w : Vec Ideal S64x128 .f32)
    (p : Fin 2560) (q : Fin 128) (P : Fin 102400)
    (hs : s (ix2 p (0 : Fin 1)) = S (ix2 P (0 : Fin 1)))
    (h0 : ∀ k : Fin 64, x0 (ix2 p k) = A0 (ix2 P k))
    (h1 : ∀ k : Fin 64, x1 (ix2 p k) = A1 (ix2 P k))
    (hb : ∀ k : Fin 64, b (ix2 (0 : Fin 1) k) = B (ix2 (0 : Fin 1) k))
    (hw : ∀ k : Fin 64, w (ix2 k q) = W (ix2 k q)) :
    k2_pay1 s x0 x1 b w s (ix2 p q) = G_r2 S A0 A1 B W (ix2 P q) := by
  rw [pay_r2_apply, G_r2_apply, hs]
  refine congrArg (· * S (ix2 P (0 : Fin 1))) (Finset.sum_congr rfl fun k _ => ?_)
  rw [h0 k, h1 k, hb k, hw k]

theorem blockIdx_r2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem flushed_r2_eq (c : Dev nD) (t : Fin cfg2.N) :
    (dat2 V c).flushed 5 t = ((cfg2.win 5).blk t).view.read (Elt Ideal)
      (G_r2 (V c main_v12) (V c main_v38) (V c main_v27) (V c main_v39) (V c main_arg7)) := by
  show (cfg2.win 5).cut (grid2.coords t) ((dat2 V c).after 5 t) = _
  rw [after2_5, out2_5_eq]
  obtain ⟨e00, e01, e10, e11, e20, e21, e30, e31, e40, e41, e50, e51⟩ := blockIdx_r2 t
  have ht : t.val < 40 := t.isLt
  funext j
  have hj0 : (j 0).val < 2560 := (j 0).isLt
  have hj1 : (j 1).val < 128 := (j 1).isLt
  have hP : t.val * 2560 + (j 0).val < 102400 := by omega
  refine Eq.trans (b := k2_pay1 (iblk2 V c 2 t) (iblk2 V c 0 t) (iblk2 V c 1 t) (iblk2 V c 3 t) (iblk2 V c 4 t) (iblk2 V c 2 t)
    (ix2 (⟨(j 0).val, hj0⟩ : Fin 2560) (⟨(j 1).val, hj1⟩ : Fin 128))) ?_ ?_
  · show k2_pay1 (iblk2 V c 2 t) (iblk2 V c 0 t) (iblk2 V c 1 t) (iblk2 V c 3 t) (iblk2 V c 4 t) (iblk2 V c 2 t) ((cfg2.win 5).xinj (grid2.coords t) j) = _
    refine congrArg _ (funext fun a => ?_)
    match a with
    | ⟨0, _⟩ => rfl
    | ⟨1, _⟩ => rfl
  refine (point_r2 (V c main_v12) (V c main_v38) (V c main_v27) (V c main_v39) (V c main_arg7) _ _ _ _ _ _ _
    (⟨t.val * 2560 + (j 0).val, hP⟩ : Fin 102400) ?_ ?_ ?_ ?_ ?_).trans ?_
  · exact congrArg _ (Shape.idx_ext₂ ((win2_2.rect_emb_val t _ (0 : Fin 2)).trans (by rw [e20]; rfl)) (win2_2.rect_emb_val_of_index_zero t (1 : Fin 2) e21 _))
  · exact fun k => congrArg _ (Shape.idx_ext₂ ((win2_0.rect_emb_val t _ (0 : Fin 2)).trans (by rw [e00]; rfl)) (win2_0.rect_emb_val_of_index_zero t (1 : Fin 2) e01 _))
  · exact fun k => congrArg _ (Shape.idx_ext₂ ((win2_1.rect_emb_val t _ (0 : Fin 2)).trans (by rw [e10]; rfl)) (win2_1.rect_emb_val_of_index_zero t (1 : Fin 2) e11 _))
  · exact fun k => congrArg _ (Shape.idx_ext₂ (win2_3.rect_emb_val_of_index_zero t (0 : Fin 2) e30 _) (win2_3.rect_emb_val_of_index_zero t (1 : Fin 2) e31 _))
  · exact fun k => congrArg _ (Shape.idx_ext₂ (win2_4.rect_emb_val_of_index_zero t (0 : Fin 2) e40 _) (win2_4.rect_emb_val_of_index_zero t (1 : Fin 2) e41 _))
  · exact congrArg _ (Shape.idx_ext₂ ((win2_5.rect_emb_val t j (0 : Fin 2)).trans (by rw [e50]; rfl)).symm (win2_5.rect_emb_val_of_index_zero t (1 : Fin 2) e51 j).symm)

theorem cover_r2 (i : S102400x128.Idx) : ∃ t : Fin cfg2.N, (cfg2.win 5).flush t = true ∧ i ∈ ((cfg2.win 5).blk t).view.set := by
  have hi0 : (i 0).val < 102400 := (i 0).isLt
  have hlt : (i 0).val / 2560 < cfg2.N := by rw [show cfg2.N = 40 from N_2]; omega
  obtain ⟨-, -, -, -, -, -, -, -, -, -, e50, e51⟩ := blockIdx_r2 ⟨(i 0).val / 2560, hlt⟩
  have e : ((cfg2.win 5).blk ⟨(i 0).val / 2560, hlt⟩).view.emb (ix2 (⟨(i 0).val % 2560, Nat.mod_lt _ (by decide)⟩ : Fin 2560) (i 1)) = i :=
    Shape.idx_ext₂ ((win2_5.rect_emb_val _ _ (0 : Fin 2)).trans (by rw [e50]; exact Nat.div_add_mod' _ _))
      (win2_5.rect_emb_val_of_index_zero _ (1 : Fin 2) e51 _)
  exact ⟨_, flush2_5 _, e ▸ View.emb_mem_set _ _⟩

theorem arr2_eq (c : Dev nD) : (dat2 V c).arrAt 5 cfg2.N = G_r2 (V c main_v12) (V c main_v38) (V c main_v27) (V c main_v39) (V c main_arg7) :=
  (dat2 V c).arrAt_eq_of_cover 5 (G_r2 (V c main_v12) (V c main_v38) (V c main_v27) (V c main_v39) (V c main_arg7)) (fun t _ => flushed_r2_eq V c t) cover_r2

local infixl:70 " ⬝ " => (HMul.hMul : EReal → EReal → EReal)
local infixl:65 " ⊹ " => (HAdd.hAdd : EReal → EReal → EReal)
local notation "emax" => (Max.max : EReal → EReal → EReal)

theorem arr2_apply (c : Dev nD) (p : Fin 102400) (q : Fin 128) :
    (Fr.dat2 V c).arrAt 5 cfg2.N (ix2 p q)
      = (∑ k : Fin 64, emax (V c main_v12 (ix2 p (0 : Fin 1)) ⬝ (V c main_v38 (ix2 p k) ⊹ V c main_v27 (ix2 p k)) ⊹ V c main_v39 (ix2 (0 : Fin 1) k)) 0
          ⬝ V c main_arg7 (ix2 k q)) ⬝ V c main_v12 (ix2 p (0 : Fin 1)) := by
  rw [arr2_eq]
  rfl

end Cert.KernelIdeal.Val

end
-- ==== Proof.Val.Reg3Val.lean ====
import proofs.«415774_j67989332296056_2_alg».proof.Proof.Gen.KernelIdeal.Skeleton
import proofs.«415774_j67989332296056_2_alg».proof.Proof.Fr.Reg3
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.Pipeline (Dat Cfg Window)

def ind (w : BitVec 32) (g : Fin 1024) : EReal := if BitVec.ofNat 32 g.val = w then 1 else 0

theorem sitofp_cmpi_eq (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  by_cases h : x = y
  · rw [if_pos h, beq_iff_eq.2 h, show ((BitVec.ofBool true).setWidth 32).toInt = 1 from by decide]; simp
  · rw [if_neg h, beq_eq_false_iff_ne.2 h, show ((BitVec.ofBool false).setWidth 32).toInt = 0 from by decide]; simp

theorem k3_pay5_apply (v17 : Vec Ideal S1x2560 .i32) (g : Fin 1024) (n : Fin 2560) :
    k3_pay5 (F := Ideal) v17 (ix2 g n) = ind (v17 (ix2 (0 : Fin 1) n)) g := by
  unfold k3_pay5
  simp only [shapeCast_self]
  rw [sitofp_apply, extui_apply]
  show FloatOps.sitofp .f32 ((IntOp.cmpi .eq (iota .tc S1024x2560 32 [0] iota_S1024x2560_d0_w32 (ix2 g n))
    (broadcastTo S1024x2560 v17 broadcasts_S1x2560_S1024x2560 (ix2 g n))).setWidth 32) = _
  rw [iota_single_apply, broadcastTo_1b_ab_apply, sitofp_cmpi_eq]
  rfl

theorem k3_pay7_apply (v17 : Vec Ideal S1x2560 .i32) (v31 : Vec Ideal S1024x1 .f32) (g : Fin 1024) :
    k3_pay7 (F := Ideal) v17 v31 (ix2 g (0 : Fin 1))
      = v31 (ix2 g (0 : Fin 1)) + ∑ n : Fin 2560, ind (v17 (ix2 (0 : Fin 1) n)) g := by
  unfold k3_pay7
  rw [addf_apply]
  refine congrArg (v31 (ix2 g (0 : Fin 1)) + ·) ?_
  refine (shapeCast_apply _ shapeCasts_S1024_S1024x1 (ix2 g (0 : Fin 1)) (ix1 g) ?_).trans ?_
  · rw [Shape.rowMajor_val_one, Shape.rowMajor_val_two]
    show g.val = g.val * 1 + 0
    omega
  · refine (Ideal.multiReduction_add_single (k3_pay5 (F := Ideal) v17) 0x00000000#32 reduces_S1024x2560_S1024 (.inl rfl) rfl (ix1 g)).trans ?_
    show ∑ n : Fin 2560, k3_pay5 (F := Ideal) v17 (reduces_S1024x2560_S1024.lift (ix1 g) n) = _
    refine Finset.sum_congr rfl fun n _ => ?_
    have e : reduces_S1024x2560_S1024.lift (ix1 g) n = ix2 g n := funext fun a => Fin.ext (match a with | ⟨0, _⟩ => rfl | ⟨1, _⟩ => rfl)
    rw [e, k3_pay5_apply]

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k3_pay6_apply (v3 : Vec Ideal S2560x1 .f32) (v5 v7 : Vec Ideal S2560x128 .f32) (v12 : Vec Ideal S1x128 .f32)
    (v17 : Vec Ideal S1x2560 .i32) (v25 : Vec Ideal S1024x128 .f32) (g : Fin 1024) (f : Fin 128) :
    k3_pay6 (F := Ideal) v3 v5 v7 v12 v17 v25 (ix2 g f)
      = v25 (ix2 g f) + ∑ n : Fin 2560, ind (v17 (ix2 (0 : Fin 1) n)) g
          * (v3 (ix2 n (0 : Fin 1)) * (v5 (ix2 n f) + v7 (ix2 n f)) + v12 (ix2 (0 : Fin 1) f)) := by
  unfold k3_pay6
  simp only [matmul, shapeCast_self]
  rw [addf_apply]
  refine congrArg (v25 (ix2 g f) + ·) ?_
  rw [Ideal.matmul_constant_zero_apply, ← Equiv.sum_comp (contrEquiv1 dot_S1024x2560_S2560x128_S1024x128_1_0_0_1_n_n 2560 rfl rfl).symm]
  refine Finset.sum_congr rfl fun n _ => ?_
  have el : dot_S1024x2560_S2560x128_S1024x128_1_0_0_1_n_n.lhsIdx (ix2 g f) ((contrEquiv1 dot_S1024x2560_S2560x128_S1024x128_1_0_0_1_n_n 2560 rfl rfl).symm n) = ix2 g n := funext fun a => Fin.ext (match a with | ⟨0, _⟩ => rfl | ⟨1, _⟩ => rfl)
  have er : dot_S1024x2560_S2560x128_S1024x128_1_0_0_1_n_n.rhsIdx (ix2 g f) ((contrEquiv1 dot_S1024x2560_S2560x128_S1024x128_1_0_0_1_n_n 2560 rfl rfl).symm n) = ix2 n f := funext fun a => Fin.ext (match a with | ⟨0, _⟩ => rfl | ⟨1, _⟩ => rfl)
  rw [el, er, truncf_apply, truncf_apply, k3_pay5_apply, addf_apply, mulf_apply, addf_apply,
    broadcastTo_a1_ab_apply, broadcastTo_1b_ab_apply]

theorem k3_pay2_apply (v42 : Vec Ideal S1024x128 .f32) (v43 : Vec Ideal S1024x1 .f32) (v49 : Vec Ideal S128x1 .f32)
    (v52 : Vec Ideal S1x1 .f32) (g : Fin 1024) :
    k3_pay2 (F := Ideal) v42 v43 v49 v52 (ix2 g (0 : Fin 1))
      = (∑ f : Fin 128, Ideal.div (v42 (ix2 g f)) (max (v43 (ix2 g (0 : Fin 1))) 1) * v49 (ix2 f (0 : Fin 1)))
          + v52 (ix2 (0 : Fin 1) (0 : Fin 1)) := by
  unfold k3_pay2
  simp only [matmul, shapeCast_self]
  rw [addf_apply, broadcastTo_1b_ab_apply]
  refine congrArg (· + v52 (ix2 (0 : Fin 1) (0 : Fin 1))) ?_
  rw [Ideal.matmul_constant_zero_apply, ← Equiv.sum_comp (contrEquiv1 dot_S1024x128_S128x1_S1024x1_1_0_0_1_n_n 128 rfl rfl).symm]
  refine Finset.sum_congr rfl fun f _ => ?_
  have el : dot_S1024x128_S128x1_S1024x1_1_0_0_1_n_n.lhsIdx (ix2 g (0 : Fin 1)) ((contrEquiv1 dot_S1024x128_S128x1_S1024x1_1_0_0_1_n_n 128 rfl rfl).symm f) = ix2 g f := funext fun a => Fin.ext (match a with | ⟨0, _⟩ => rfl | ⟨1, _⟩ => rfl)
  have er : dot_S1024x128_S128x1_S1024x1_1_0_0_1_n_n.rhsIdx (ix2 g (0 : Fin 1)) ((contrEquiv1 dot_S1024x128_S128x1_S1024x1_1_0_0_1_n_n 128 rfl rfl).symm f) = ix2 f (0 : Fin 1) := funext fun a => Fin.ext (match a with | ⟨0, _⟩ => rfl | ⟨1, _⟩ => rfl)
  rw [el, er, truncf_apply, truncf_apply, divf_apply, broadcastTo_a1_ab_apply, maximumf_apply, broadcast_apply]
  show Ideal.div (v42 (ix2 g f)) (max (v43 (ix2 g (0 : Fin 1))) (Ideal.ofBits .f32 0x3F800000#32)) * v49 (ix2 f (0 : Fin 1)) = _
  rw [Ideal.ofBits_one_f32]

theorem k3_pay1_eq {F : FTy → Type} [FloatOps F] (v : FVec F S1024x1 .f32) : k3_pay1 v = v := by
  unfold k3_pay1
  exact shapeCast_self _ _

theorem k3_pay3_apply (i : S1024x128.Idx) : (k3_pay3 (F := Ideal)) i = 0 := by
  unfold k3_pay3
  simp only [shapeCast_self]
  show Ideal.ofBits .f32 0x00000000#32 = 0
  exact Ideal.ofBits_zero_f32

theorem k3_pay4_apply (i : S1024x1.Idx) : (k3_pay4 (F := Ideal)) i = 0 := by
  unfold k3_pay4
  simp only [shapeCast_self]
  show Ideal.ofBits .f32 0x00000000#32 = 0
  exact Ideal.ofBits_zero_f32

variable (V : (c : Dev nD) → (b : Ref sig .tc) → Buf (Elt Ideal) ((c : Thread nD τ).loc b))

/-- The offset of a window's block in its array, for all windows, points and axes at once. -/
theorem off3 : ∀ (w : Fin cfg3.W) (t : Fin cfg3.N) (a : Fin (cfg3.win w).shape.rank),
    (cfg3.win w).index t a * (cfg3.win w).size a = (if (w.val < 3 ∧ a.val = 0) ∨ (w.val = 4 ∧ a.val = 1) then t.val * 2560 else 0) :=
  (by decide +kernel : ∀ (w : Fin cfg3.W) (t : Fin grid3.N) (a : Fin (cfg3.win w).shape.rank), _)

/-- An element of a block sits in the array at the block's start plus its own coordinate. -/
theorem emb3 (w : Fin cfg3.W) (t : Fin cfg3.N) (y : ((cfg3.win w).xblock (cfg3.grid.coords t)).Idx) (a : Fin (cfg3.win w).shape.rank) :
    (((cfg3.win w).rect t).emb y a : ℕ) = (if (w.val < 3 ∧ a.val = 0) ∨ (w.val = 4 ∧ a.val = 1) then t.val * 2560 else 0) + (y a).val :=
  ((cfg3.win w).rect_emb_val t y a).trans (congrArg (· + (y a).val) (off3 w t a))

theorem row_lt (t : Fin cfg3.N) (n : Fin 2560) : t.val * 2560 + n.val < 102400 := by
  have ht : t.val < 40 := lt_of_lt_of_eq t.isLt N_3
  have hn := n.isLt
  omega

theorem iblk3_0_apply (c : Dev nD) (t : Fin cfg3.N) (n : Fin 2560) (f : Fin 128) :
    Fr.iblk3 V c 0 t (ix2 n f) = V c main_v51 (ix2 (⟨t.val * 2560 + n.val, row_lt t n⟩ : Fin 102400) f) := by
  show V c main_v51 (((cfg3.win 0).blk t).view.emb (ix2 n f)) = _
  exact congrArg (V c main_v51) (funext fun a => Fin.ext ((emb3 0 t _ a).trans (match a with | ⟨0, _⟩ => rfl | ⟨1, _⟩ => Nat.zero_add _)))

theorem iblk3_1_apply (c : Dev nD) (t : Fin cfg3.N) (n : Fin 2560) (f : Fin 128) :
    Fr.iblk3 V c 1 t (ix2 n f) = V c main_v40 (ix2 (⟨t.val * 2560 + n.val, row_lt t n⟩ : Fin 102400) f) := by
  show V c main_v40 (((cfg3.win 1).blk t).view.emb (ix2 n f)) = _
  exact congrArg (V c main_v40) (funext fun a => Fin.ext ((emb3 1 t _ a).trans (match a with | ⟨0, _⟩ => rfl | ⟨1, _⟩ => Nat.zero_add _)))

theorem iblk3_2_apply (c : Dev nD) (t : Fin cfg3.N) (n : Fin 2560) :
    Fr.iblk3 V c 2 t (ix2 n (0 : Fin 1)) = V c main_v12 (ix2 (⟨t.val * 2560 + n.val, row_lt t n⟩ : Fin 102400) (0 : Fin 1)) := by
  show V c main_v12 (((cfg3.win 2).blk t).view.emb (ix2 n (0 : Fin 1))) = _
  exact congrArg (V c main_v12) (funext fun a => Fin.ext ((emb3 2 t _ a).trans (match a with | ⟨0, _⟩ => rfl | ⟨1, _⟩ => Nat.zero_add _)))

theorem iblk3_3_apply (c : Dev nD) (t : Fin cfg3.N) (f : Fin 128) :
    Fr.iblk3 V c 3 t (ix2 (0 : Fin 1) f) = V c main_v54 (ix2 (0 : Fin 1) f) := by
  show V c main_v54 (((cfg3.win 3).blk t).view.emb (ix2 (0 : Fin 1) f)) = _
  exact congrArg (V c main_v54) (funext fun a => Fin.ext ((emb3 3 t _ a).trans (match a with | ⟨0, _⟩ => Nat.zero_add _ | ⟨1, _⟩ => Nat.zero_add _)))

theorem iblk3_4_apply (c : Dev nD) (t : Fin cfg3.N) (n : Fin 2560) :
    Fr.iblk3 V c 4 t (ix2 (0 : Fin 1) n) = V c main_v53 (ix2 (0 : Fin 1) (⟨t.val * 2560 + n.val, row_lt t n⟩ : Fin 102400)) := by
  show V c main_v53 (((cfg3.win 4).blk t).view.emb (ix2 (0 : Fin 1) n)) = _
  exact congrArg (V c main_v53) (funext fun a => Fin.ext ((emb3 4 t _ a).trans (match a with | ⟨0, _⟩ => Nat.zero_add _ | ⟨1, _⟩ => rfl)))

theorem iblk3_5_apply (c : Dev nD) (t : Fin cfg3.N) (f : Fin 128) :
    Fr.iblk3 V c 5 t (ix2 f (0 : Fin 1)) = V c main_arg9 (ix2 f (0 : Fin 1)) := by
  show V c main_arg9 (((cfg3.win 5).blk t).view.emb (ix2 f (0 : Fin 1))) = _
  exact congrArg (V c main_arg9) (funext fun a => Fin.ext ((emb3 5 t _ a).trans (match a with | ⟨0, _⟩ => Nat.zero_add _ | ⟨1, _⟩ => Nat.zero_add _)))

theorem iblk3_6_apply (c : Dev nD) (t : Fin cfg3.N) :
    Fr.iblk3 V c 6 t (ix2 (0 : Fin 1) (0 : Fin 1)) = V c main_v55 (ix2 (0 : Fin 1) (0 : Fin 1)) := by
  show V c main_v55 (((cfg3.win 6).blk t).view.emb (ix2 (0 : Fin 1) (0 : Fin 1))) = _
  exact congrArg (V c main_v55) (funext fun a => Fin.ext ((emb3 6 t _ a).trans (match a with | ⟨0, _⟩ => Nat.zero_add _ | ⟨1, _⟩ => Nat.zero_add _)))

def rowTermOf (lab : S1x102400.Idx → BitVec 32) (sc : S102400x1.Idx → EReal) (a b : S102400x128.Idx → EReal)
    (bias : S1x128.Idx → EReal) (g : Fin 1024) (f : Fin 128) (p : Fin 102400) : EReal :=
  ind (lab (ix2 (0 : Fin 1) p)) g * (sc (ix2 p (0 : Fin 1)) * (a (ix2 p f) + b (ix2 p f)) + bias (ix2 (0 : Fin 1) f))

def rowTerm (c : Dev nD) (g : Fin 1024) (f : Fin 128) (p : Fin 102400) : EReal :=
  rowTermOf (V c main_v53) (V c main_v12) (V c main_v51) (V c main_v40) (V c main_v54) g f p

def sumOf (lab : S1x102400.Idx → BitVec 32) (sc : S102400x1.Idx → EReal) (a b : S102400x128.Idx → EReal)
    (bias : S1x128.Idx → EReal) (g : Fin 1024) (f : Fin 128) : EReal :=
  ∑ p : Fin 102400, ind (lab (ix2 (0 : Fin 1) p)) g * (sc (ix2 p (0 : Fin 1)) * (a (ix2 p f) + b (ix2 p f)) + bias (ix2 (0 : Fin 1) f))

def cntOf (lab : S1x102400.Idx → BitVec 32) (g : Fin 1024) : EReal := ∑ p : Fin 102400, ind (lab (ix2 (0 : Fin 1) p)) g

def sumP (c : Dev nD) (g : Fin 1024) (f : Fin 128) : EReal :=
  sumOf (V c main_v53) (V c main_v12) (V c main_v51) (V c main_v40) (V c main_v54) g f

def cntP (c : Dev nD) (g : Fin 1024) : EReal := cntOf (V c main_v53) g

theorem sum_step (c : Dev nD) (t : Fin cfg3.N) (acc : Vec Ideal S1024x128 .f32) (g : Fin 1024) (f : Fin 128) :
    k3_pay6 (F := Ideal) (Fr.iblk3 V c 2 t) (Fr.iblk3 V c 0 t) (Fr.iblk3 V c 1 t) (Fr.iblk3 V c 3 t) (Fr.iblk3 V c 4 t) acc (ix2 g f)
      = acc (ix2 g f) + ∑ n : Fin 2560, rowTerm V c g f ⟨t.val * 2560 + n.val, row_lt t n⟩ := by
  refine (k3_pay6_apply (Fr.iblk3 V c 2 t) (Fr.iblk3 V c 0 t) (Fr.iblk3 V c 1 t) (Fr.iblk3 V c 3 t) (Fr.iblk3 V c 4 t) acc g f).trans ?_
  refine congrArg (acc (ix2 g f) + ·) (Finset.sum_congr rfl fun n _ => ?_)
  rw [iblk3_4_apply, iblk3_2_apply, iblk3_0_apply, iblk3_1_apply, iblk3_3_apply]
  rfl

theorem cnt_step (c : Dev nD) (t : Fin cfg3.N) (acc : Vec Ideal S1024x1 .f32) (g : Fin 1024) :
    k3_pay1 (k3_pay7 (F := Ideal) (Fr.iblk3 V c 4 t) acc) (ix2 g (0 : Fin 1))
      = acc (ix2 g (0 : Fin 1)) + ∑ n : Fin 2560, ind (V c main_v53 (ix2 (0 : Fin 1) (⟨t.val * 2560 + n.val, row_lt t n⟩ : Fin 102400))) g := by
  rw [k3_pay1_eq]
  refine (k3_pay7_apply (Fr.iblk3 V c 4 t) acc g).trans ?_
  refine congrArg (acc (ix2 g (0 : Fin 1)) + ·) (Finset.sum_congr rfl fun n _ => ?_)
  rw [iblk3_4_apply]

def ext0 (a : Fin 102400 → EReal) (p : ℕ) : EReal := if h : p < 102400 then a ⟨p, h⟩ else 0

theorem ext0_val (a : Fin 102400 → EReal) (p : Fin 102400) : ext0 a p.val = a p := by
  unfold ext0
  rw [dif_pos p.isLt]

theorem sum_range_blocks (F : ℕ → EReal) (B : ℕ) : ∀ T : ℕ,
    ∑ t ∈ Finset.range T, ∑ n ∈ Finset.range B, F (t * B + n) = ∑ p ∈ Finset.range (T * B), F p
  | 0 => by simp
  | T + 1 => by
    have e : (T + 1) * B = T * B + B := Nat.succ_mul T B
    rw [Finset.sum_range_succ, sum_range_blocks F B T, e, Finset.sum_range_add]

theorem sum_block_eq (a : Fin 102400 → EReal) (t : Fin cfg3.N) :
    ∑ n : Fin 2560, a ⟨t.val * 2560 + n.val, row_lt t n⟩ = ∑ n ∈ Finset.range 2560, ext0 a (t.val * 2560 + n) := by
  rw [Finset.sum_range]
  refine Finset.sum_congr rfl fun n _ => ?_
  exact (ext0_val a ⟨t.val * 2560 + n.val, row_lt t n⟩).symm

theorem fold_eq_sum (S : ℕ → EReal) (acc : (t : ℕ) → t < 40 → EReal)
    (h0 : acc 0 (by decide) = 0 + S 0) (hs : ∀ t (h : t + 1 < 40), acc (t + 1) h = acc t (by omega) + S (t + 1)) :
    ∀ (n : ℕ) (hn : n < 40), acc n hn = ∑ t ∈ Finset.range (n + 1), S t
  | 0, _ => by rw [h0, zero_add, Finset.sum_range_one]
  | n + 1, hn => by
    rw [hs n hn, fold_eq_sum S acc h0 hs n (by omega)]
    exact (Finset.sum_range_succ S (n + 1)).symm

/-- A sum begun at zero that takes one block of 2560 rows per point is, after the fortieth point, the sum over all the rows. -/
theorem acc_last (a : Fin 102400 → EReal) (acc : (t : ℕ) → t < 40 → EReal)
    (h0 : acc 0 (by decide) = 0 + ∑ n : Fin 2560, a ⟨Fr.t0.val * 2560 + n.val, row_lt Fr.t0 n⟩)
    (hs : ∀ t (h : t + 1 < 40), acc (t + 1) h = acc t (by omega)
      + ∑ n : Fin 2560, a ⟨(⟨t + 1, Fr.lt_N3 h⟩ : Fin cfg3.N).val * 2560 + n.val, row_lt ⟨t + 1, Fr.lt_N3 h⟩ n⟩) :
    acc 39 (by decide) = ∑ p, a p := by
  rw [fold_eq_sum (fun t => ∑ k ∈ Finset.range 2560, ext0 a (t * 2560 + k)) acc (h0.trans (congrArg _ (sum_block_eq a Fr.t0)))
    (fun t h => (hs t h).trans (congrArg _ (sum_block_eq a ⟨t + 1, Fr.lt_N3 h⟩))) 39 (by decide),
    sum_range_blocks (ext0 a) 2560 40, show 40 * 2560 = 102400 from rfl, Finset.sum_range]
  exact Finset.sum_congr rfl fun p _ => ext0_val a p

theorem sumAcc3_last (c : Dev nD) (g : Fin 1024) (f : Fin 128) :
    Fr.sumAcc3 V c 39 (by decide) (ix2 g f) = sumP V c g f :=
  acc_last (rowTerm V c g f) (fun t h => Fr.sumAcc3 V c t h (ix2 g f))
    (by show Fr.sumAcc3 V c 0 _ (ix2 g f) = _; rw [Fr.sumAcc3_zero, sum_step, k3_pay3_apply])
    (fun t h => by show Fr.sumAcc3 V c (t + 1) h (ix2 g f) = Fr.sumAcc3 V c t _ (ix2 g f) + _; rw [Fr.sumAcc3_succ, sum_step])

theorem cntAcc3_last (c : Dev nD) (g : Fin 1024) :
    Fr.cntAcc3 V c 39 (by decide) (ix2 g (0 : Fin 1)) = cntP V c g :=
  acc_last (fun p => ind (V c main_v53 (ix2 (0 : Fin 1) p)) g) (fun t h => Fr.cntAcc3 V c t h (ix2 g (0 : Fin 1)))
    (by show Fr.cntAcc3 V c 0 _ (ix2 g (0 : Fin 1)) = _; rw [Fr.cntAcc3_zero, cnt_step, k3_pay4_apply])
    (fun t h => by show Fr.cntAcc3 V c (t + 1) h (ix2 g (0 : Fin 1)) = Fr.cntAcc3 V c t _ (ix2 g (0 : Fin 1)) + _; rw [Fr.cntAcc3_succ, cnt_step])

theorem out3_7_apply (c : Dev nD) (g : Fin 1024) :
    Fr.out3_7 V c (ix2 g (0 : Fin 1))
      = (∑ f : Fin 128, Ideal.div (sumP V c g f) (max (cntP V c g) 1) * (V c main_arg9 (ix2 f (0 : Fin 1)) : EReal))
          + (V c main_v55 (ix2 (0 : Fin 1) (0 : Fin 1)) : EReal) := by
  unfold Fr.out3_7
  refine (k3_pay2_apply (Fr.sumAcc3 V c 39 (by decide)) (Fr.cntAcc3 V c 39 (by decide)) (Fr.iblk3 V c 5 Fr.tl) (Fr.iblk3 V c 6 Fr.tl) g).trans ?_
  rw [iblk3_6_apply, cntAcc3_last]
  refine congrArg (· + (V c main_v55 (ix2 (0 : Fin 1) (0 : Fin 1)) : EReal)) (Finset.sum_congr rfl fun f _ => ?_)
  rw [iblk3_5_apply, sumAcc3_last]

theorem flushed3_7_eq (c : Dev nD) (t : Fin cfg3.N) :
    (Fr.dat3 V c).flushed 7 t = ((cfg3.win 7).blk t).view.read (Elt Ideal) (Fr.out3_7 V c) := by
  show (cfg3.win 7).cut (grid3.coords t) ((Fr.dat3 V c).after 7 t) = _
  rw [Fr.after3_7]
  funext j
  show Fr.out3_7 V c ((cfg3.win 7).xinj (grid3.coords t) j) = Fr.out3_7 V c (((cfg3.win 7).blk t).view.emb j)
  exact congrArg (Fr.out3_7 V c) (funext fun a => Fin.ext ((emb3 7 t j a).trans (Nat.zero_add _)).symm)

theorem mem_blk3_7 (t : Fin cfg3.N) (i : S1024x1.Idx) :
    i ∈ ((cfg3.win 7).blk t).view.set ↔ ∀ a : Fin 2, win3_7.index t a * S1024x1.size a ≤ (i a).val ∧ (i a).val < win3_7.index t a * S1024x1.size a + S1024x1.size a := by
  show i ∈ ((View.whole main_v56).slice (win3_7.rect t)).set ↔ _
  rw [View.set_slice_whole, Rect.mem_set_unit]
  exact Iff.rfl

theorem arr3_eq (c : Dev nD) : (Fr.dat3 V c).arrAt 7 cfg3.N = Fr.out3_7 V c := by
  refine (Fr.dat3 V c).arrAt_eq_of_cover 7 (Fr.out3_7 V c) (fun t _ => flushed3_7_eq V c t) fun i => ?_
  refine ⟨Fr.tl, (flush3_7 Fr.tl).2 (by decide), (mem_blk3_7 Fr.tl i).2 fun a => ?_⟩
  rw [show win3_7.index Fr.tl a * S1024x1.size a = 0 from off3 7 Fr.tl a]
  exact ⟨Nat.zero_le _, Nat.lt_of_lt_of_eq (i a).isLt (Nat.zero_add _).symm⟩

theorem arr3_apply (c : Dev nD) (g : Fin 1024) :
    (Fr.dat3 V c).arrAt 7 cfg3.N (ix2 g (0 : Fin 1))
      = (∑ f : Fin 128, Ideal.div (sumP V c g f) (max (cntP V c g) 1) * (V c main_arg9 (ix2 f (0 : Fin 1)) : EReal))
          + (V c main_v55 (ix2 (0 : Fin 1) (0 : Fin 1)) : EReal) :=
  (congrFun (arr3_eq V c) (ix2 g (0 : Fin 1))).trans (out3_7_apply V c g)

end Cert.KernelIdeal.Val
-- ==== Proof.Val.KVal.lean ====
import proofs.«415774_j67989332296056_2_alg».proof.Proof.Fr.Chain
import proofs.«415774_j67989332296056_2_alg».proof.Proof.Views
import proofs.«415774_j67989332296056_2_alg».proof.Proof.SpecLaw
import proofs.«415774_j67989332296056_2_alg».proof.Proof.Val.KLaw
import proofs.«415774_j67989332296056_2_alg».proof.Proof.Val.HostRead
import proofs.«415774_j67989332296056_2_alg».proof.Proof.Val.Reg0Val
import proofs.«415774_j67989332296056_2_alg».proof.Proof.Val.Reg1Val
import proofs.«415774_j67989332296056_2_alg».proof.Proof.Val.Reg2Val
import proofs.«415774_j67989332296056_2_alg».proof.Proof.Val.Reg3Val

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.ValueIdx

variable (m : (ℓ : Loc nD τ sig) → Buf (Elt Ideal) ℓ) (c : Dev nD)

open Cert.Views Cert.Spec Cert.PadLaw

theorem left3_apply (h : Cert.Views.SrcOK (A1 m c)) (g : Fin 1024) :
    left3 m c (ix2 g (0 : Fin 1))
      = Cert.Views.outK (A0 m c) (A1 m c) (A2 m c) (A3 m c) (A4 m c) (A5 m c) (A6 m c) (A7 m c) (A8 m c) (A9 m c) (A10 m c) h g := by
  refine (arr3_apply (ent3 m) c g).trans ?_
  unfold Cert.Views.outK
  exact padded_chain_read _ _ _ _ _ _ _ _ _ _ _ _ _
    (fun p => ent0 m c main_v12 (ix2 p (0 : Fin 1))) (fun p => ent1 m c main_v12 (ix2 p (0 : Fin 1)))
    (fun p => ent2 m c main_v12 (ix2 p (0 : Fin 1))) (fun p => ent3 m c main_v12 (ix2 p (0 : Fin 1)))
    (fun p k => ent0 m c main_v13 (ix2 p k))
    (fun p q => left0 m c (ix2 p q)) (fun p k => ent1 m c main_v25 (ix2 p k))
    (fun p q => left1 m c (ix2 p q)) (fun p k => ent2 m c main_v38 (ix2 p k))
    (fun p q => left2 m c (ix2 p q)) (fun p k => ent3 m c main_v51 (ix2 p k))
    (fun p => ent3 m c main_v53 (ix2 (0 : Fin 1) p))
    (fun k q => ent0 m c main_arg3 (ix2 k q)) (fun k => ent1 m c main_v26 (ix2 (0 : Fin 1) k))
    (fun k q => ent1 m c main_arg5 (ix2 k q)) (fun k => ent2 m c main_v39 (ix2 (0 : Fin 1) k))
    (fun k q => ent2 m c main_arg7 (ix2 k q)) (fun k => ent3 m c main_v54 (ix2 (0 : Fin 1) k))
    (fun f => ent3 m c main_arg9 (ix2 f (0 : Fin 1))) (ent3 m c main_v55 (ix2 (0 : Fin 1) (0 : Fin 1)))
    (fun p k => ent1 m c main_v14 (ix2 p k)) (fun p k => ent2 m c main_v27 (ix2 p k))
    (fun p k => ent3 m c main_v40 (ix2 p k))
    (fun k q => by rw [ent0_arg3]; rfl) (bias1 m c)
    (fun k q => by rw [ent1_arg5]; rfl) (bias2 m c)
    (fun k q => by rw [ent2_arg7]; rfl) (bias3 m c)
    (fun f => by rw [ent3_arg9]; rfl) (blin m c)
    (fun p k => by rw [ent1_v14]) (fun p k => by rw [ent2_v27]) (fun p k => by rw [ent3_v40])
    (scaleP0 m c) (scaleP1 m c) (scaleP2 m c) (scaleP3 m c) (xP m c)
    (arr0_apply (ent0 m) c) (sc1 m c h)
    (arr1_apply (ent1 m) c) (sc2 m c h)
    (arr2_apply (ent2 m) c) (sc3 m c h)
    (labelsP m c) g

end Cert.KernelIdeal.Val

end
-- ==== Proof.RefRead.lean ====
import proofs.«415774_j67989332296056_2_alg».proof.Proof.Gen.ReferenceIdeal.Run
import proofs.«415774_j67989332296056_2_alg».proof.Proof.Gen.ReferenceIdeal.Read
-- ==== Proof.RefPool.lean ====
import proofs.«415774_j67989332296056_2_alg».proof.Proof.RefRead
import proofs.«415774_j67989332296056_2_alg».proof.Proof.Views
import proofs.«415774_j67989332296056_2_alg».proof.Proof.LibRead

noncomputable section

open scoped BigOperators

namespace Cert.RefPool

open Idealize.ShloMosaic Idealize.ShloMosaic.ValueIdx Idealize.SL.Sem
open Cert.ReferenceIdeal Cert.ReferenceIdeal.Read Cert.LibRead

open Cert.ReferenceIdeal.Facts₀

theorem ofBits_one_f32 : Ideal.ofBits .f32 0x3F800000#32 = (1 : EReal) := by
  simp [Ideal.ofBits, Ideal.ieee, -EReal.coe_mul]; norm_num

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x32, .f32⟩ : BufTy).Contents (Elt Ideal))
  (x4 : (⟨S32, .f32⟩ : BufTy).Contents (Elt Ideal)) (x5 : (⟨S32x64, .f32⟩ : BufTy).Contents (Elt Ideal))
  (x6 : (⟨S64, .f32⟩ : BufTy).Contents (Elt Ideal)) (x7 : (⟨S64x128, .f32⟩ : BufTy).Contents (Elt Ideal))
  (x8 : (⟨S128, .f32⟩ : BufTy).Contents (Elt Ideal)) (x9 : (⟨S128x1, .f32⟩ : BufTy).Contents (Elt Ideal))
  (x10 : (⟨S1, .f32⟩ : BufTy).Contents (Elt Ideal))

theorem v125_at (v : Fin 100000) : val_main_v125 (F := Ideal) x2 (ix2 v (0 : Fin 1)) = x2 (ix1 v) := by
  rw [val_main_v125_apply]
  exact congrArg x2 (funext fun a => match a with | ⟨0, _⟩ => rfl)

/-- The nodes whose entry in a column that holds the labels is `g` are the members of `g`. -/
theorem filter_label (I : IVec ⟨2, ![100000, 1]⟩ 32) (hI : ∀ v : Fin 100000, I (ix2 v (0 : Fin 1)) = x2 (ix1 v)) (g : Fin 1024) :
    Finset.univ.filter (fun e : Fin 100000 => (I (ix2 e (0 : Fin 1))).toInt = (g.val : ℤ))
      = Cert.Spec.members (Cert.Views.batZ x2) g := by
  unfold Cert.Spec.members Cert.Views.batZ
  exact Finset.filter_congr fun e _ => by rw [hI]

theorem v126_at (h3 : Fin Cert.Spec.NN → Fin 128 → EReal)
    (H : ∀ (v : Fin 100000) (f : Fin 128),
      Cert.ReferenceIdeal.Read.val_main_v123 (F := Ideal) x0 x1 x3 x4 x5 x6 x7 x8 (ValueIdx.ix2 v f) = h3 v f)
    (g : Fin 1024) (k : Fin 128) :
    val_main_v126 (F := Ideal) x0 x1 x2 x3 x4 x5 x6 x7 x8 (ix2 g k)
      = 0 + ∑ v ∈ Cert.Spec.members (Cert.Views.batZ x2) g, h3 v k := by
  unfold val_main_v126
  refine (scatterAdd_rows_apply (φ := .f32) scatter_S1024x128_S100000x1_S100000x128_1_0_0_1_wf _ _ _ g k).trans ?_
  rw [val_main_v124_apply, val_main_cst_22_apply, Ideal.ofBits_def, Ideal.ofBits_zero_f32, filter_label x2 _ (v125_at x2)]
  exact congrArg (fun t : EReal => 0 + t) (Finset.sum_congr rfl fun v _ => H v k)

theorem v130_at (g : Fin 1024) :
    val_main_v130 (F := Ideal) x2 (ix1 g) = 0 + ∑ _v ∈ Cert.Spec.members (Cert.Views.batZ x2) g, (1 : EReal) := by
  unfold val_main_v130
  refine (scatterAdd_flat_apply (φ := .f32) scatter_S1024_S100000x1_S100000_n_0_0_1_wf _ _ _ g).trans ?_
  rw [val_main_v128_apply, val_main_cst_24_apply, Ideal.ofBits_def, Ideal.ofBits_zero_f32,
    filter_label x2 (val_main_v129 (F := Ideal) x2) (v125_at x2)]
  refine congrArg (fun t : EReal => 0 + t) (Finset.sum_congr rfl fun v _ => ?_)
  rw [val_main_v127_apply, val_main_cst_23_apply, Ideal.ofBits_def, ofBits_one_f32]

theorem v134_at (g : Fin 1024) (k : Fin 128) :
    val_main_v134 (F := Ideal) x2 (ix2 g k)
      = max (0 + ∑ _v ∈ Cert.Spec.members (Cert.Views.batZ x2) g, (1 : EReal)) 1 := by
  rw [val_main_v134_apply, val_main_v133_apply, val_main_v132_apply, Ideal.maximumf_def]
  have e : idx_main_v133 (idx_main_v134 (ix2 g k)) = ix1 g := funext fun a => match a with | ⟨0, _⟩ => rfl
  rw [e, v130_at, val_main_v131_apply, val_main_cst_25_apply, Ideal.ofBits_def, ofBits_one_f32]

theorem pool_at (h3 : Fin Cert.Spec.NN → Fin 128 → EReal)
    (H : ∀ (v : Fin 100000) (f : Fin 128),
      Cert.ReferenceIdeal.Read.val_main_v123 (F := Ideal) x0 x1 x3 x4 x5 x6 x7 x8 (ValueIdx.ix2 v f) = h3 v f)
    (g : Fin 1024) :
    Cert.ReferenceIdeal.Read.val_main_v139 (F := Ideal) x0 x1 x2 x3 x4 x5 x6 x7 x8 x9 x10 (ValueIdx.ix2 g (0 : Fin 1))
      = Cert.Spec.pool (Cert.Views.batZ x2) h3 (Cert.Views.col x9) (x10 (ValueIdx.ix1 (0 : Fin 1))) g := by
  rw [val_main_v139_apply, Ideal.addf_def, val_main_v136_apply, val_main_v138_apply, val_main_v137_apply]
  unfold Cert.Spec.pool
  have e10 : idx_main_v137 (idx_main_v138 (ix2 g (0 : Fin 1))) = ix1 (0 : Fin 1) :=
    funext fun a => match a with | ⟨0, _⟩ => rfl
  rw [e10]
  refine congrArg (fun t : EReal => t + x10 (ix1 (0 : Fin 1))) (Finset.sum_congr rfl fun k _ => ?_)
  have el : lidx_main_v136 (ix2 g (0 : Fin 1)) k = ix2 g k :=
    funext fun a => match a with | ⟨0, _⟩ => rfl | ⟨1, _⟩ => rfl
  have er : ridx_main_v136 (ix2 g (0 : Fin 1)) k = ix2 k (0 : Fin 1) :=
    funext fun a => match a with | ⟨0, _⟩ => rfl | ⟨1, _⟩ => rfl
  rw [el, er, val_main_v135_apply, Ideal.hostDivf_def, v126_at x0 x1 x2 x3 x4 x5 x6 x7 x8 h3 H, v134_at]
  rfl

end Cert.RefPool

end
-- ==== Proof.RefVal.lean ====
import proofs.«415774_j67989332296056_2_alg».proof.Proof.RefRead
import proofs.«415774_j67989332296056_2_alg».proof.Proof.Views
import proofs.«415774_j67989332296056_2_alg».proof.Proof.LibRead
import proofs.«415774_j67989332296056_2_alg».proof.Proof.RefPool

noncomputable section
open scoped BigOperators
open Idealize.ShloMosaic Idealize.ShloMosaic.ValueIdx Cert.ReferenceIdeal Cert.ReferenceIdeal.Read Cert.Spec Cert.Views

namespace Cert.RefVal

open Cert.ReferenceIdeal.Facts₀

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x32, .f32⟩ : BufTy).Contents (Elt Ideal))
  (x4 : (⟨S32, .f32⟩ : BufTy).Contents (Elt Ideal)) (x5 : (⟨S32x64, .f32⟩ : BufTy).Contents (Elt Ideal))
  (x6 : (⟨S64, .f32⟩ : BufTy).Contents (Elt Ideal)) (x7 : (⟨S64x128, .f32⟩ : BufTy).Contents (Elt Ideal))
  (x8 : (⟨S128, .f32⟩ : BufTy).Contents (Elt Ideal)) (x9 : (⟨S128x1, .f32⟩ : BufTy).Contents (Elt Ideal))
  (x10 : (⟨S1, .f32⟩ : BufTy).Contents (Elt Ideal))

macro "refval_idx" : tactic =>
  `(tactic| (funext a; first | (match a with | ⟨0, _⟩ => rfl | ⟨1, _⟩ => rfl) | (match a with | ⟨0, _⟩ => rfl)))

theorem norm_of_nonneg (w : BitVec 32) (h : 0 ≤ w.toInt) :
    Scalar.select (IntOp.cmpi .slt w 0#32) (IntOp.addi w 100000#32) w = w := by
  have h1 : ¬ IntOp.cmpi .slt w 0#32 = 1#1 := by
    rw [IntOp.cmpi_slt]
    have : (0#32 : BitVec 32).toInt = 0 := by decide
    omega
  rw [eq_zero_of_ne_one h1, select_zero]

theorem v1_at (e : Fin 1600000) :
    val_main_v1 (F := Ideal) x1 (ix1 e) = x1 (ix2 (0 : Fin 2) e) := by
  rw [val_main_v1_apply, val_main_v0_apply]
  congr 1
  funext a
  match a with
  | ⟨0, _⟩ => rfl
  | ⟨1, _⟩ => exact Fin.ext (Nat.mod_eq_of_lt e.isLt)

theorem v3_at (e : Fin 1600000) :
    val_main_v3 (F := Ideal) x1 (ix1 e) = x1 (ix2 (1 : Fin 2) e) := by
  rw [val_main_v3_apply, val_main_v2_apply]
  congr 1
  funext a
  match a with
  | ⟨0, _⟩ => rfl
  | ⟨1, _⟩ => exact Fin.ext (Nat.mod_eq_of_lt e.isLt)

theorem v6_at (e : Fin 1600000) :
    val_main_v6 (F := Ideal) x1 (ix2 e (0 : Fin 1)) = x1 (ix2 (1 : Fin 2) e) := by
  have hi : idx_main_v6 (ix2 e (0 : Fin 1)) = ix1 e := by refval_idx
  rw [val_main_v6_apply, hi, v3_at]

theorem sum_into (I : IVec S1600000x1 32)
    (hI : ∀ e : Fin 1600000, I (ix2 e (0 : Fin 1)) = x1 (ix2 (1 : Fin 2) e)) (v : Fin 100000) (g : Fin 1600000 → EReal) :
    ∑ e ∈ Finset.univ.filter (fun e : Fin 1600000 => (I (ix2 e (0 : Fin 1))).toInt = (v.val : ℤ)), g e
      = ∑ e ∈ into (dstZ x1) v, g e := by
  unfold into dstZ
  simp only [hI]

theorem v7_at (v : Fin 100000) :
    val_main_v7 (F := Ideal) x1 (ix1 v) = 0 + ∑ _e ∈ into (dstZ x1) v, (1 : EReal) := by
  unfold val_main_v7
  refine (LibRead.scatterAdd_flat_apply (N := 100000) (E := 1600000) scatter_S100000_S1600000x1_S1600000_n_0_0_1_wf _ _ _ v).trans ?_
  rw [val_main_v5_apply, val_main_cst_0_apply, Ideal.ofBits_def, Ideal.ofBits_zero_f32, sum_into x1 _ (v6_at x1)]
  simp only [val_main_v4_apply, val_main_cst_apply, Ideal.ofBits_def, RefPool.ofBits_one_f32]

theorem v10_at (v : Fin 100000) :
    val_main_v10 (F := Ideal) x1 (ix1 v) = scaleOf x1 v := by
  rw [val_main_v10_apply, val_main_v9_apply, v7_at, val_main_v8_apply, val_main_cst_1_apply, Ideal.ofBits_def,
    RefPool.ofBits_one_f32, Ideal.hostUnary_rsqrt_def, Ideal.addf_def]
  rfl

theorem v17_at (hs : SrcOK x1) (e : Fin 1600000) :
    val_main_v17 (F := Ideal) x1 (ix2 e (0 : Fin 1)) = x1 (ix2 (0 : Fin 2) e) := by
  have hi : idx_main_v17 (ix2 e (0 : Fin 1)) = ix1 e := by refval_idx
  rw [val_main_v17_apply, hi, val_main_v16_apply, val_main_v13_apply, val_main_v15_apply, val_main_v12_apply,
    val_main_v14_apply, val_main_c_apply, val_main_c_2_apply, v1_at]
  exact norm_of_nonneg _ (hs e).1

theorem v24_at (e : Fin 1600000) (hd : 0 ≤ dstZ x1 e) :
    val_main_v24 (F := Ideal) x1 (ix2 e (0 : Fin 1)) = x1 (ix2 (1 : Fin 2) e) := by
  have hi : idx_main_v24 (ix2 e (0 : Fin 1)) = ix1 e := by refval_idx
  rw [val_main_v24_apply, hi, val_main_v23_apply, val_main_v20_apply, val_main_v22_apply, val_main_v19_apply,
    val_main_v21_apply, val_main_c_3_apply, val_main_c_4_apply, v3_at]
  exact norm_of_nonneg _ hd

theorem gatherFlat_node {α : Type} (y : (⟨1, ![100000]⟩ : Shape).Idx → α) (I : IVec ⟨2, ![1600000, 1]⟩ 32) (e : Fin 1600000)
    (v : Fin 100000) (hv : (I (ix2 e (0 : Fin 1))).toInt = (v.val : ℤ)) :
    Host.gather gather_S100000_S1600000x1_S1600000_n_0_n_n_0_1_1 y I (ix1 e) = y (ix1 v) := by
  have hlt := v.isLt
  refine (LibRead.gather_flat_apply_of_inRange (N := 100000) (E := 1600000)
    gather_S100000_S1600000x1_S1600000_n_0_n_n_0_1_1_wf y I e (by omega) (by omega)).trans ?_
  exact congrArg (fun k => y (ix1 k)) (Fin.ext (by
    show (I (ix2 e (0 : Fin 1))).toInt.toNat = v.val
    omega))

theorem v18_at (hs : SrcOK x1) (e : Fin 1600000) :
    val_main_v18 (F := Ideal) x1 (ix1 e) = scaleOf x1 (srcOf x1 hs e) := by
  unfold val_main_v18
  rw [gatherFlat_node _ _ e (srcOf x1 hs e) (by rw [v17_at x1 hs e]; exact (Int.toNat_of_nonneg (hs e).1).symm), v10_at]

theorem v25_at (e : Fin 1600000) (v : Fin 100000)
    (hv : dstZ x1 e = (v.val : ℤ)) : val_main_v25 (F := Ideal) x1 (ix1 e) = scaleOf x1 v := by
  unfold val_main_v25
  have hd : 0 ≤ dstZ x1 e := by rw [hv]; omega
  rw [gatherFlat_node _ _ e v (by rw [v24_at x1 e hd]; exact hv), v10_at]

theorem v26_at (hs : SrcOK x1) (e : Fin 1600000) (v : Fin 100000)
    (hv : dstZ x1 e = (v.val : ℤ)) :
    val_main_v26 (F := Ideal) x1 (ix1 e) = scaleOf x1 (srcOf x1 hs e) * scaleOf x1 v := by
  rw [val_main_v26_apply, v18_at x1 hs, v25_at x1 e v hv, Ideal.mulf_def]

theorem v40_at (v : Fin 100000) :
    val_main_v40 (F := Ideal) x1 (ix1 v) = scaleOf x1 v * scaleOf x1 v := by
  rw [val_main_v40_apply, v10_at, Ideal.mulf_def]

theorem gatherRows_node {α : Type} {Fo : Nat}
    (wf : GatherDims.WF ⟨2, ![100000, Fo]⟩ ⟨2, ![1600000, 1]⟩ ⟨2, ![1600000, Fo]⟩ [1] [0] [] [0] [] 1 ![1, Fo])
    (H : (⟨2, ![100000, Fo]⟩ : Shape).Idx → α) (I : IVec ⟨2, ![1600000, 1]⟩ 32) (e : Fin 1600000) (f : Fin Fo)
    (v : Fin 100000) (hv : (I (ix2 e (0 : Fin 1))).toInt = (v.val : ℤ)) :
    Host.gather (LibRead.gatherRowsDims 100000 1600000 Fo wf) H I (ix2 e f) = H (ix2 v f) := by
  have hlt := v.isLt
  refine (LibRead.gather_rows_apply_of_inRange wf H I e f (by omega) (by omega)).trans ?_
  exact congrArg (fun k => H (ix2 k f)) (Fin.ext (by
    show (I (ix2 e (0 : Fin 1))).toInt.toNat = v.val
    omega))

/-- One layer at `(v, f)`: source rows times the edge coefficient summed at the destinations, plus self-loop and bias. -/
theorem layer_at {Fo : Nat} (hs : SrcOK x1)
    (wg : GatherDims.WF ⟨2, ![100000, Fo]⟩ ⟨2, ![1600000, 1]⟩ ⟨2, ![1600000, Fo]⟩ [1] [0] [] [0] [] 1 ![1, Fo])
    (ws : ScatterDims.WF ⟨2, ![100000, Fo]⟩ ⟨2, ![1600000, 1]⟩ ⟨2, ![1600000, Fo]⟩ [1] [0] [0] 1)
    {P Z S B : FVec Ideal ⟨2, ![100000, Fo]⟩ .f32} {C : FVec Ideal ⟨2, ![1600000, Fo]⟩ .f32}
    {I J : IVec ⟨2, ![1600000, 1]⟩ 32} {h : Fin NN → Fin Fo → EReal} {b : Fin Fo → EReal}
    (hP : ∀ v f, P (ix2 v f) = h v f) (hZ : ∀ v f, Z (ix2 v f) = 0)
    (hS : ∀ v f, S (ix2 v f) = scaleOf x1 v * scaleOf x1 v) (hB : ∀ v f, B (ix2 v f) = b f)
    (hC : ∀ e f v, dstZ x1 e = (v.val : ℤ) → C (ix2 e f) = scaleOf x1 (srcOf x1 hs e) * scaleOf x1 v)
    (hI : ∀ e : Fin 1600000, I (ix2 e (0 : Fin 1)) = x1 (ix2 (0 : Fin 2) e))
    (hJ : ∀ e : Fin 1600000, J (ix2 e (0 : Fin 1)) = x1 (ix2 (1 : Fin 2) e)) (v : Fin 100000) (f : Fin Fo) :
    addf (addf (Host.scatterAdd (F := Ideal) (LibRead.scatterRowsDims 100000 1600000 Fo ws) Z J
        (mulf (Host.gather (LibRead.gatherRowsDims 100000 1600000 Fo wg) P I) C)) (mulf P S)) B (ix2 v f)
      = aggR (scaleOf x1) (srcOf x1 hs) (dstZ x1) h b v f := by
  show Host.scatterAdd (F := Ideal) _ Z J _ (ix2 v f) + P (ix2 v f) * S (ix2 v f) + B (ix2 v f) = _
  rw [LibRead.scatterAdd_rows_apply, hZ, sum_into x1 J hJ, hP, hS, hB]
  unfold aggR
  refine congrArg (fun t : EReal => 0 + t + h v f * (scaleOf x1 v * scaleOf x1 v) + b f) (Finset.sum_congr rfl fun e he => ?_)
  show Host.gather _ P I (ix2 e f) * C (ix2 e f) = _
  rw [gatherRows_node wg P I e f (srcOf x1 hs e) (by rw [hI]; exact (Int.toNat_of_nonneg (hs e).1).symm), hP,
    hC e f v (Finset.mem_filter.mp he).2]

section Layers

variable (hs : SrcOK x1)

def act1 : Fin NN → Fin 32 → EReal :=
  relu (aggR (scaleOf x1) (srcOf x1 hs) (dstZ x1) (lin (mat x0) (mat x3)) (vec x4))

theorem v11_at (v : Fin 100000) (f : Fin 32) :
    val_main_v11 (F := Ideal) x0 x3 (ix2 v f) = lin (mat x0) (mat x3) v f := by
  rw [val_main_v11_apply]
  unfold lin mat
  refine Finset.sum_congr rfl fun k _ => ?_
  have hl : lidx_main_v11 (ix2 v f) k = ix2 v k := by refval_idx
  have hr : ridx_main_v11 (ix2 v f) k = ix2 k f := by refval_idx
  rw [hl, hr]

theorem v47_at (v : Fin 100000) (f : Fin 32) :
    val_main_v47 (F := Ideal) x0 x1 x3 x4 (ix2 v f)
      = aggR (scaleOf x1) (srcOf x1 hs) (dstZ x1) (lin (mat x0) (mat x3)) (vec x4) v f :=
  layer_at x1 hs gather_S100000x32_S1600000x1_S1600000x32_1_0_n_n_0_1_132_wf
    scatter_S100000x32_S1600000x1_S1600000x32_1_0_0_1_wf (v11_at x0 x3)
    (fun v f => by rw [val_main_v37_apply, val_main_cst_7_apply, Ideal.ofBits_def, Ideal.ofBits_zero_f32])
    (fun v f => by
      rw [val_main_v42_apply, val_main_v41_apply, show idx_main_v41 (idx_main_v42 (ix2 v f)) = ix1 v from by refval_idx]
      exact v40_at x1 v)
    (fun v f => by
      rw [val_main_v46_apply, val_main_v45_apply, show idx_main_v45 (idx_main_v46 (ix2 v f)) = ix1 f from by refval_idx]
      rfl)
    (fun e f v hv => by
      rw [val_main_v35_apply, val_main_v27_apply, show idx_main_v27 (idx_main_v35 (ix2 e f)) = ix1 e from by refval_idx]
      exact v26_at x1 hs e v hv)
    (v17_at x1 hs) (v6_at x1) v f

theorem v48_at (v : Fin 100000) (f : Fin 32) :
    val_main_v48 (F := Ideal) x0 x1 x3 x4 (ix2 v f) = act1 x0 x1 x3 x4 hs v f := by
  rw [val_main_v48_apply, val_main_call0_v0_apply, val_main_call0_cst_apply, v47_at x0 x1 x3 x4 hs, Ideal.ofBits_def,
    Ideal.ofBits_zero_f32, Ideal.maximumf_def]
  rfl

def act2 : Fin NN → Fin 64 → EReal :=
  relu (aggR (scaleOf x1) (srcOf x1 hs) (dstZ x1) (lin (act1 x0 x1 x3 x4 hs) (mat x5)) (vec x6))

theorem v49_at (v : Fin 100000) (f : Fin 64) :
    val_main_v49 (F := Ideal) x0 x1 x3 x4 x5 (ix2 v f) = lin (act1 x0 x1 x3 x4 hs) (mat x5) v f := by
  rw [val_main_v49_apply]
  unfold lin mat
  refine Finset.sum_congr rfl fun k _ => ?_
  have hl : lidx_main_v49 (ix2 v f) k = ix2 v k := by refval_idx
  have hr : ridx_main_v49 (ix2 v f) k = ix2 k f := by refval_idx
  rw [hl, hr, v48_at x0 x1 x3 x4 hs]

theorem v85_at (v : Fin 100000) (f : Fin 64) :
    val_main_v85 (F := Ideal) x0 x1 x3 x4 x5 x6 (ix2 v f)
      = aggR (scaleOf x1) (srcOf x1 hs) (dstZ x1) (lin (act1 x0 x1 x3 x4 hs) (mat x5)) (vec x6) v f :=
  layer_at x1 hs gather_S100000x64_S1600000x1_S1600000x64_1_0_n_n_0_1_164_wf
    scatter_S100000x64_S1600000x1_S1600000x64_1_0_0_1_wf (v49_at x0 x1 x3 x4 x5 hs)
    (fun v f => by rw [val_main_v75_apply, val_main_cst_14_apply, Ideal.ofBits_def, Ideal.ofBits_zero_f32])
    (fun v f => by
      rw [val_main_v80_apply, val_main_v79_apply, show idx_main_v79 (idx_main_v80 (ix2 v f)) = ix1 v from by refval_idx]
      exact v40_at x1 v)
    (fun v f => by
      rw [val_main_v84_apply, val_main_v83_apply, show idx_main_v83 (idx_main_v84 (ix2 v f)) = ix1 f from by refval_idx]
      rfl)
    (fun e f v hv => by
      rw [val_main_v73_apply, val_main_v65_apply, show idx_main_v65 (idx_main_v73 (ix2 e f)) = ix1 e from by refval_idx]
      exact v26_at x1 hs e v hv)
    (v17_at x1 hs) (v6_at x1) v f

theorem v86_at (v : Fin 100000) (f : Fin 64) :
    val_main_v86 (F := Ideal) x0 x1 x3 x4 x5 x6 (ix2 v f) = act2 x0 x1 x3 x4 x5 x6 hs v f := by
  rw [val_main_v86_apply, val_main_call1_v0_apply, val_main_call1_cst_apply, v85_at x0 x1 x3 x4 x5 x6 hs,
    Ideal.ofBits_def, Ideal.ofBits_zero_f32, Ideal.maximumf_def]
  rfl

theorem v87_at (v : Fin 100000) (f : Fin 128) :
    val_main_v87 (F := Ideal) x0 x1 x3 x4 x5 x6 x7 (ix2 v f) = lin (act2 x0 x1 x3 x4 x5 x6 hs) (mat x7) v f := by
  rw [val_main_v87_apply]
  unfold lin mat
  refine Finset.sum_congr rfl fun k _ => ?_
  have hl : lidx_main_v87 (ix2 v f) k = ix2 v k := by refval_idx
  have hr : ridx_main_v87 (ix2 v f) k = ix2 k f := by refval_idx
  rw [hl, hr, v86_at x0 x1 x3 x4 x5 x6 hs]

theorem v123_at (v : Fin 100000) (f : Fin 128) :
    val_main_v123 (F := Ideal) x0 x1 x3 x4 x5 x6 x7 x8 (ix2 v f)
      = netR (scaleOf x1) (srcOf x1 hs) (dstZ x1) (mat x0) (mat x3) (vec x4) (mat x5) (vec x6) (mat x7) (vec x8) v f :=
  layer_at x1 hs gather_S100000x128_S1600000x1_S1600000x128_1_0_n_n_0_1_1128_wf
    scatter_S100000x128_S1600000x1_S1600000x128_1_0_0_1_wf (v87_at x0 x1 x3 x4 x5 x6 x7 hs)
    (fun v f => by rw [val_main_v113_apply, val_main_cst_21_apply, Ideal.ofBits_def, Ideal.ofBits_zero_f32])
    (fun v f => by
      rw [val_main_v118_apply, val_main_v117_apply, show idx_main_v117 (idx_main_v118 (ix2 v f)) = ix1 v from by refval_idx]
      exact v40_at x1 v)
    (fun v f => by
      rw [val_main_v122_apply, val_main_v121_apply, show idx_main_v121 (idx_main_v122 (ix2 v f)) = ix1 f from by refval_idx]
      rfl)
    (fun e f v hv => by
      rw [val_main_v111_apply, val_main_v103_apply, show idx_main_v103 (idx_main_v111 (ix2 e f)) = ix1 e from by refval_idx]
      exact v26_at x1 hs e v hv)
    (v17_at x1 hs) (v6_at x1) v f

end Layers

theorem valR_apply (h : Cert.Views.SrcOK x1) (g : Fin 1024) :
    Cert.ReferenceIdeal.Read.val_main_v139 (F := Ideal) x0 x1 x2 x3 x4 x5 x6 x7 x8 x9 x10 (ValueIdx.ix2 g (0 : Fin 1))
      = Cert.Views.outR x0 x1 x2 x3 x4 x5 x6 x7 x8 x9 x10 h g := by
  unfold outR
  exact Cert.RefPool.pool_at x0 x1 x2 x3 x4 x5 x6 x7 x8 x9 x10 _ (fun v f => v123_at x0 x1 x3 x4 x5 x6 x7 x8 h v f) g

end Cert.RefVal
end
-- ==== Proof.lean ====
import proofs.«415774_j67989332296056_2_alg».proof.Defs
import proofs.«415774_j67989332296056_2_alg».proof.Proof.Gen.Kernel
import proofs.«415774_j67989332296056_2_alg».proof.Proof.Gen.KernelIdeal
import proofs.«415774_j67989332296056_2_alg».proof.Proof.Gen.ReferenceIdeal
import proofs.«415774_j67989332296056_2_alg».proof.Proof.Gen.Pre_finite_inputs
import proofs.«415774_j67989332296056_2_alg».proof.Proof.Fr.Run
import proofs.«415774_j67989332296056_2_alg».proof.Proof.FrK.Run
import proofs.«415774_j67989332296056_2_alg».proof.Proof.Val.KVal
import proofs.«415774_j67989332296056_2_alg».proof.Proof.RefVal
import proofs.«415774_j67989332296056_2_alg».proof.Proof.RefRead
import proofs.«415774_j67989332296056_2_alg».proof.Proof.SpecLaw
import proofs.«415774_j67989332296056_2_alg».proof.Proof.PreDecode
import Idealize.ShloMosaic.PureOps.IdealRules
import Idealize.ShloMosaic.Lib.ValueIdx

set_option maxRecDepth 16384

noncomputable section

open Idealize.ShloMosaic Idealize.ShloMosaic.TcCoe Idealize.SL.Sem Idealize.ShloMosaic.ValueIdx

namespace Cert.Proof

theorem frame_kernel [Cert.Kernel.Facts] [Cert.Pre_finite_inputs.Facts] : Cert.frame_Kernel :=
  fun m ρ _ => (θ_run Cert.Kernel.defs _ _).mono (fun _ h c => (h c).2) (Cert.Kernel.Fr.run_out m ρ)

theorem frame_kernelIdeal [Cert.KernelIdeal.Facts] [Cert.Pre_finite_inputs.Facts] : Cert.frame_KernelIdeal :=
  fun m ρ _ => (θ_run Cert.KernelIdeal.defs _ _).mono (fun _ h c => (h c).2) (Cert.KernelIdeal.Fr.run_out m ρ)

theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

theorem preserves : Cert.preserves_Kernel_KernelIdeal :=
  IdealRules.truncf_extf.statement Cert.KernelIdeal.S1024x2560 .f32 .bf16

theorem algebraic [Cert.KernelIdeal.Facts] [Cert.ReferenceIdeal.Facts] [Cert.Pre_finite_inputs.Facts] :
    Cert.algebraic_KernelIdeal_ReferenceIdeal := by
  intro m ρ m' ρ' hpre hagree
  have hsrc : ∀ c : Dev Cert.KernelIdeal.nD, Cert.Views.SrcOK (m ((c.tc : Thread Cert.KernelIdeal.nD Cert.KernelIdeal.τ).loc Cert.KernelIdeal.main_arg1)) :=
    fun c => Cert.PreDecode.srcOK_of_fn (F := Ideal) _ _ _ _ _ _ _ _ _ _ _ (hpre c)
  refine ⟨fun c => Cert.KernelIdeal.Fr.left3 m c, Cert.KernelIdeal.Fr.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v139_eq]
  obtain ⟨h0, h1, h2, h3, h4, h5, h6, h7, h8, h9, h10⟩ := hagree c
  rw [h0, h1, h2, h3, h4, h5, h6, h7, h8, h9, h10]
  funext i
  obtain ⟨g, z, rfl⟩ : ∃ (g : Fin 1024) (z : Fin 1), i = ix2 g z := ⟨i 0, i 1, eq_ix2 i⟩
  obtain rfl : z = 0 := Subsingleton.elim _ _
  exact (Cert.RefVal.valR_apply _ _ _ _ _ _ _ _ _ _ _ (hsrc c) g).trans
    ((Cert.SpecLaw.outK_eq_outR _ _ _ _ _ _ _ _ _ _ _ (hsrc c) g).symm.trans
      (Cert.KernelIdeal.Val.left3_apply m c (hsrc c) g).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
